-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥
  ∧ IdealRules.named_const.Statement Cert.KernelIdeal.κ "inv_1000000000000000000000000000000" .f32 0x0DA24260#32 ((1 / 1000000000000000000000000000000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x64x64 : Shape := ⟨4, ![4, 256, 64, 64]⟩
abbrev S768x256 : Shape := ⟨2, ![768, 256]⟩
abbrev S768 : Shape := ⟨1, ![768]⟩
abbrev S256x256 : Shape := ⟨2, ![256, 256]⟩
abbrev S256 : Shape := ⟨1, ![256]⟩
abbrev S_ : Shape := ⟨0, ![]⟩

class Facts : Prop where
  bcast_S_S4x256x64x64 : S_.BroadcastsInDim S4x256x64x64 (![] : Fin 0 → Fin S4x256x64x64.rank)
  reducesTo_S4x256x64x64_S_d0_1_2_3 : S4x256x64x64.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S4x256x64x64 .f32) (main_arg1 : FVec F S768x256 .f32) (main_arg2 : FVec F S768 .f32) (main_arg3 : FVec F S256x256 .f32) (main_arg4 : FVec F S256 .f32) : IVec S_ 1 :=
  let main_v0 : FVec F S4x256x64x64 .f32 := Host.absf main_arg0
  let main_cst : FVec F S_ .f32 := constant S_ .f32 0x7F800000#32
  let main_v1 : FVec F S4x256x64x64 .f32 := broadcastInDim S4x256x64x64 ![] bcast_S_S4x256x64x64 main_cst
  let main_v2 : IVec S4x256x64x64 1 := cmpf .olt main_v0 main_v1
  let main_c : IVec S_ 1 := constantI S_ 1 1#1
  let main_v3 : IVec S_ 1 := (fun x v => Host.reduce IntOp.andi x v reducesTo_S4x256x64x64_S_d0_1_2_3 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S4x256x64x64 : Shape := ⟨4, ![4, 256, 64, 64]⟩
abbrev S768x256 : Shape := ⟨2, ![768, 256]⟩
abbrev S768 : Shape := ⟨1, ![768]⟩
abbrev S256x256 : Shape := ⟨2, ![256, 256]⟩
abbrev S256 : Shape := ⟨1, ![256]⟩
abbrev S4x256x4096 : Shape := ⟨3, ![4, 256, 4096]⟩
abbrev S768x1 : Shape := ⟨2, ![768, 1]⟩
abbrev S256x1 : Shape := ⟨2, ![256, 1]⟩
abbrev S1x256x4096 : Shape := ⟨3, ![1, 256, 4096]⟩
abbrev S1x256x1024 : Shape := ⟨3, ![1, 256, 1024]⟩
abbrev S256x4096 : Shape := ⟨2, ![256, 4096]⟩
abbrev S256x1024 : Shape := ⟨2, ![256, 1024]⟩
abbrev S1024x1 : Shape := ⟨2, ![1024, 1]⟩
abbrev S1024x256 : Shape := ⟨2, ![1024, 256]⟩
abbrev S1024x1024 : Shape := ⟨2, ![1024, 1024]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4x256x64x64, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S4x256x4096, .f32⟩
  | .hbm, ⟨6, _⟩ => ⟨S768x1, .f32⟩
  | .hbm, ⟨7, _⟩ => ⟨S256x1, .f32⟩
  | .hbm, ⟨8, _⟩ => ⟨S4x256x4096, .f32⟩
  | .hbm, ⟨9, _⟩ => ⟨S4x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S768x256, .f32⟩
  | .local _ .vmem, ⟨3, _⟩ => ⟨S768x1, .f32⟩
  | .local _ .vmem, ⟨4, _⟩ => ⟨S256x256, .f32⟩
  | .local _ .vmem, ⟨5, _⟩ => ⟨S256x1, .f32⟩
  | .local _ .vmem, ⟨6, _⟩ => ⟨S1x256x1024, .f32⟩
  | .local _ .vmem, ⟨7, _⟩ => ⟨S1x256x1024, .f32⟩
  | .local _ .vmem, ⟨8, _⟩ => ⟨S256x4096, .bf16⟩
  | .local _ .vmem, ⟨9, _⟩ => ⟨S256x4096, .bf16⟩
  | .local _ .vmem, ⟨10, _⟩ => ⟨S256x1024, .bf16⟩
  | .local _ .vmem, ⟨11, _⟩ => ⟨S1024x1, .f32⟩
  | .local _ .vmem, ⟨12, _⟩ => ⟨S1024x1, .f32⟩
  | .local _ .vmem, ⟨13, _⟩ => ⟨S1024x256, .f32⟩
  | _, _ => ⟨S4x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨3, ![4, 4, 4], ![false, false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_mult2 (i : grid0.Coords) : BitVec 32 :=
  let arg2 : BitVec 32 := BitVec.ofNat 32 (i 2).val
  let c1024_i32_0 : BitVec 32 := 1024#32
  let v2 : BitVec 32 := Scalar.muli arg2 c1024_i32_0
  v2
def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_1 : BitVec 32 := 0#32
  let v6 : BitVec 1 := Scalar.cmpi .ne v5 c0_i32_1
  v6

def k0_off1 (i : grid0.Coords) : Fin 3 → Nat :=
  let c0_23 : Index := 0#32
  let c0_24 : Index := 0#32
  let arg2 : BitVec 32 := BitVec.ofNat 32 (i 2).val
  let c1024_i32_0 : BitVec 32 := 1024#32
  let v2 : BitVec 32 := Scalar.muli arg2 c1024_i32_0
  let v3 : BitVec 32 := v2
  let v48 : Index := Scalar.indexCast v3
  ![0, 0, v48.toNat]
def k0_off2 (i : grid0.Coords) : Fin 2 → Nat :=
  let c0_33 : Index := 0#32
  let arg2 : BitVec 32 := BitVec.ofNat 32 (i 2).val
  let c1024_i32_0 : BitVec 32 := 1024#32
  let v2 : BitVec 32 := Scalar.muli arg2 c1024_i32_0
  let v3 : BitVec 32 := v2
  let v67 : Index := Scalar.indexCast v3
  ![0, v67.toNat]
def k0_cond2 (i : grid0.Coords) : BitVec 1 :=
  let arg2 : BitVec 32 := BitVec.ofNat 32 (i 2).val
  let c0_i32_2 : BitVec 32 := 0#32
  let v7 : BitVec 1 := Scalar.cmpi .eq arg2 c0_i32_2
  let v8 : BitVec 32 := Scalar.extui v7
  let c0_i32_3 : BitVec 32 := 0#32
  let v9 : BitVec 1 := Scalar.cmpi .ne v8 c0_i32_3
  v9

def k0_off3 (i : grid0.Coords) : Fin 3 → Nat :=
  let c0_23 : Index := 0#32
  let c0_24 : Index := 0#32
  let arg1 : BitVec 32 := BitVec.ofNat 32 (i 1).val
  let c1024_i32 : BitVec 32 := 1024#32
  let v0 : BitVec 32 := Scalar.muli arg1 c1024_i32
  let v1 : BitVec 32 := v0
  let v48 : Index := Scalar.indexCast v1
  ![0, 0, v48.toNat]
def k0_off4 (i : grid0.Coords) : Fin 2 → Nat :=
  let c0_5 : Index := 0#32
  let arg2 : BitVec 32 := BitVec.ofNat 32 (i 2).val
  let c1024_i32_0 : BitVec 32 := 1024#32
  let v2 : BitVec 32 := Scalar.muli arg2 c1024_i32_0
  let v3 : BitVec 32 := v2
  let v11 : Index := Scalar.indexCast v3
  ![0, v11.toNat]
def k0_cond3 (i : grid0.Coords) : BitVec 1 :=
  let arg2 : BitVec 32 := BitVec.ofNat 32 (i 2).val
  let c3_i32 : BitVec 32 := 3#32
  let v45 : BitVec 1 := Scalar.cmpi .eq arg2 c3_i32
  let v46 : BitVec 32 := Scalar.extui v45
  let c0_i32_22 : BitVec 32 := 0#32
  let v47 : BitVec 1 := Scalar.cmpi .ne v46 c0_i32_22
  v47

def k0_off5 (i : grid0.Coords) : Fin 3 → Nat :=
  let c0_33 : Index := 0#32
  let c0_34 : Index := 0#32
  let arg1 : BitVec 32 := BitVec.ofNat 32 (i 1).val
  let c1024_i32 : BitVec 32 := 1024#32
  let v0 : BitVec 32 := Scalar.muli arg1 c1024_i32
  let v1 : BitVec 32 := v0
  let v62 : Index := Scalar.indexCast v1
  ![0, 0, v62.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S768x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S256x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x256x64x64_S4x256x4096 : S4x256x64x64.ShapeCasts S4x256x4096
  shapeCasts_S768_S768x1 : S768.ShapeCasts S768x1
  shapeCasts_S256_S256x1 : S256.ShapeCasts S256x1
  h_S1x256x1024 : 0 < S1x256x1024.numel
  shapeCasts_S1x256x1024_S256x1024 : S1x256x1024.ShapeCasts S256x1024
  bitsLt_bf16_f32 : FTy.bits .bf16 < FTy.bits .f32
  inb_S768x256_S256x256_256_0 : ∀ a, (![256, 0] : Fin 2 → Nat) a + S256x256.size a ≤ S768x256.size a
  h_S256x256 : 0 < S256x256.numel
  inb_S768x1_S256x1_256_0 : ∀ a, (![256, 0] : Fin 2 → Nat) a + S256x1.size a ≤ S768x1.size a
  h_S256x1 : 0 < S256x1.numel
  shapeCasts_S256x1_S256x1 : S256x1.ShapeCasts S256x1
  inb_S768x256_S256x256_512_0 : ∀ a, (![512, 0] : Fin 2 → Nat) a + S256x256.size a ≤ S768x256.size a
  inb_S768x1_S256x1_512_0 : ∀ a, (![512, 0] : Fin 2 → Nat) a + S256x1.size a ≤ S768x1.size a
  broadcasts_S256x1_S256x1024 : S256x1.Broadcasts S256x1024
  h_S256x1024 : 0 < S256x1024.numel
  shapeCasts_S256x1024_S256x1024 : S256x1024.ShapeCasts S256x1024
  inb_S768x256_S256x256_0_0 : ∀ a, (![0, 0] : Fin 2 → Nat) a + S256x256.size a ≤ S768x256.size a
  inb_S768x1_S256x1_0_0 : ∀ a, (![0, 0] : Fin 2 → Nat) a + S256x1.size a ≤ S768x1.size a
  inb_S256x1024_S256x1024_0_0 : ∀ a, (![0, 0] : Fin 2 → Nat) a + S256x1024.size a ≤ S256x1024.size a
  packedbf16_S256x1024_S256x1024_0_0 : (Rect.unit (s := S256x1024) ![0, 0] S256x1024.size inb_S256x1024_S256x1024_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x256 : S1024x1.Broadcasts S1024x256
  inb_S256x256_S256x256_0_0 : ∀ a, (![0, 0] : Fin 2 → Nat) a + S256x256.size a ≤ S256x256.size a
  inb_S256x1_S256x1_0_0 : ∀ a, (![0, 0] : Fin 2 → Nat) a + S256x1.size a ≤ S256x1.size a
  inb_S1x256x1024_S1x256x1024_0_0_0 : ∀ a, (![0, 0, 0] : Fin 3 → Nat) a + S1x256x1024.size a ≤ S1x256x1024.size a
  shapeCasts_S256x1024_S1x256x1024 : S256x1024.ShapeCasts S1x256x1024
  shapeCasts_S4x256x4096_S4x256x64x64 : S4x256x4096.ShapeCasts S4x256x64x64
  dot_S256x256_S256x1024_S256x1024_1_0_0_1_n_n_wf : DotDims.WF S256x256 S256x1024 S256x1024 [1] [0] [0] [1] [] []
  dot_S256x1024_S256x1024_S1024x1024_0_0_1_1_n_n_wf : DotDims.WF S256x1024 S256x1024 S1024x1024 [0] [0] [1] [1] [] []
  dot_S1024x1024_S256x1024_S1024x256_1_1_0_0_n_n_wf : DotDims.WF S1024x1024 S256x1024 S1024x256 [1] [1] [0] [0] [] []
  dot_S256x256_S1024x256_S256x1024_1_1_0_0_n_n_wf : DotDims.WF S256x256 S1024x256 S256x1024 [1] [1] [0] [0] [] []
  hrank0 : 0 < grid0.rank
  k0_mult1_dvd : ∀ i : grid0.Coords, 1024 ∣ (k0_mult1 i).toNat
  k0_mult2_dvd : ∀ i : grid0.Coords, 1024 ∣ (k0_mult2 i).toNat
  k0_off1_inb : ∀ i : grid0.Coords, ∀ (k0_h1 : k0_cond1 i = 1#1), ∀ a, (k0_off1 i) a + S1x256x1024.size a ≤ S1x256x4096.size a
  k0_off2_inb : ∀ i : grid0.Coords, ∀ (k0_h1 : k0_cond1 i = 1#1), ∀ a, (k0_off2 i) a + S256x1024.size a ≤ S256x4096.size a
  k0_off2_packedbf16 : ∀ i : grid0.Coords, ∀ (k0_h1 : k0_cond1 i = 1#1), (Rect.unit (s := S256x4096) (k0_off2 i) S256x1024.size (k0_off2_inb i k0_h1)).PackedRows (EltTy.packing .bf16)
  k0_off3_inb : ∀ i : grid0.Coords, ∀ (k0_h2 : k0_cond2 i = 1#1), ∀ a, (k0_off3 i) a + S1x256x1024.size a ≤ S1x256x4096.size a
  k0_off4_inb : ∀ i : grid0.Coords, ∀ a, (k0_off4 i) a + S256x1024.size a ≤ S256x4096.size a
  k0_off5_inb : ∀ i : grid0.Coords, ∀ (k0_h3 : k0_cond3 i = 1#1), ∀ a, (k0_off5 i) a + S1x256x1024.size a ≤ S1x256x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S4x256x4096.size a
  hwx0_0 : ∀ i : grid0.Coords, EltTy.bits .f32 = 32 ∨ (Rect.block (s := S4x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x1.size a ≤ S768x1.size a
  hwx0_2 : ∀ i : grid0.Coords, EltTy.bits .f32 = 32 ∨ (Rect.block (s := S768x1) S768x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S256x1.size a
  hwx0_4 : ∀ i : grid0.Coords, EltTy.bits .f32 = 32 ∨ (Rect.block (s := S256x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x1024.size a ≤ S4x256x4096.size a
  hwx0_5 : ∀ i : grid0.Coords, EltTy.bits .f32 = 32 ∨ (Rect.block (s := S4x256x4096) S1x256x1024.size (cc0_transform_5 i) (hinb0_5 i)).WholeWords (EltTy.packing .f32)

variable [Facts₀]

def dot_S256x256_S256x1024_S256x1024_1_0_0_1_n_n : DotDims S256x256 S256x1024 S256x1024 where
  lhsContracting := [1]
  rhsContracting := [0]
  lhsNonContracting := [0]
  rhsNonContracting := [1]
  lhsBatch := []
  rhsBatch := []
  wf := dot_S256x256_S256x1024_S256x1024_1_0_0_1_n_n_wf
def dot_S256x1024_S256x1024_S1024x1024_0_0_1_1_n_n : DotDims S256x1024 S256x1024 S1024x1024 where
  lhsContracting := [0]
  rhsContracting := [0]
  lhsNonContracting := [1]
  rhsNonContracting := [1]
  lhsBatch := []
  rhsBatch := []
  wf := dot_S256x1024_S256x1024_S1024x1024_0_0_1_1_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S256x256_S1024x256_S256x1024_1_1_0_0_n_n : DotDims S256x256 S1024x256 S256x1024 where
  lhsContracting := [1]
  rhsContracting := [1]
  lhsNonContracting := [0]
  rhsNonContracting := [0]
  lhsBatch := []
  rhsBatch := []
  wf := dot_S256x256_S1024x256_S256x1024_1_1_0_0_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S256x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4x256x64x64 : Shape := ⟨4, ![4, 256, 64, 64]⟩
abbrev S768x256 : Shape := ⟨2, ![768, 256]⟩
abbrev S768 : Shape := ⟨1, ![768]⟩
abbrev S256x256 : Shape := ⟨2, ![256, 256]⟩
abbrev S256 : Shape := ⟨1, ![256]⟩
abbrev S4x256x4096 : Shape := ⟨3, ![4, 256, 4096]⟩
abbrev S4x4096x256 : Shape := ⟨3, ![4, 4096, 256]⟩
abbrev S4x4096x768 : Shape := ⟨3, ![4, 4096, 768]⟩
abbrev S1x1x768 : Shape := ⟨3, ![1, 1, 768]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S1x1x256 : Shape := ⟨3, ![1, 1, 256]⟩

abbrev nBuf : Space → Nat
  | .hbm => 41
  | .vmem => 0
  | .smem => 0
  | _ => 0

abbrev bufTy : (tb : Table) → Fin (tcTables nBuf tb) → BufTy
  | .hbm, ⟨0, _⟩ => ⟨S4x256x64x64, .f32⟩
  | .hbm, ⟨1, _⟩ => ⟨S768x256, .f32⟩
  | .hbm, ⟨2, _⟩ => ⟨S768, .f32⟩
  | .hbm, ⟨3, _⟩ => ⟨S256x256, .f32⟩
  | .hbm, ⟨4, _⟩ => ⟨S256, .f32⟩
  | .hbm, ⟨5, _⟩ => ⟨S4x256x4096, .f32⟩
  | .hbm, ⟨6, _⟩ => ⟨S4x4096x256, .f32⟩
  | .hbm, ⟨7, _⟩ => ⟨S4x4096x768, .f32⟩
  | .hbm, ⟨8, _⟩ => ⟨S1x1x768, .f32⟩
  | .hbm, ⟨9, _⟩ => ⟨S4x4096x768, .f32⟩
  | .hbm, ⟨10, _⟩ => ⟨S4x4096x768, .f32⟩
  | .hbm, ⟨11, _⟩ => ⟨S4x4096x256, .f32⟩
  | .hbm, ⟨12, _⟩ => ⟨S4x4096x256, .f32⟩
  | .hbm, ⟨13, _⟩ => ⟨S4x4096x256, .f32⟩
  | .hbm, ⟨14, _⟩ => ⟨S4x4096x4096, .f32⟩
  | .hbm, ⟨15, _⟩ => ⟨S_, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x4096x256, .f32⟩
  | .hbm, ⟨34, _⟩ => ⟨S4x4096x256, .f32⟩
  | .hbm, ⟨35, _⟩ => ⟨S1x1x256, .f32⟩
  | .hbm, ⟨36, _⟩ => ⟨S4x4096x256, .f32⟩
  | .hbm, ⟨37, _⟩ => ⟨S4x4096x256, .f32⟩
  | .hbm, ⟨38, _⟩ => ⟨S4x256x4096, .f32⟩
  | .hbm, ⟨39, _⟩ => ⟨S4x256x64x64, .f32⟩
  | .hbm, ⟨40, _⟩ => ⟨S4x256x64x64, .f32⟩
  | _, _ => ⟨S4x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]

class Facts₀ : Prop where
  shapeCasts_S4x256x64x64_S4x256x4096 : S4x256x64x64.ShapeCasts S4x256x4096
  transposes_S4x256x4096_S4x4096x256_0_2_1 : S4x256x4096.Transposes [0, 2, 1] S4x4096x256
  bcast_S768_S1x1x768_2 : S768.BroadcastsInDim S1x1x768 (![2] : Fin 1 → Fin S1x1x768.rank)
  bcast_S1x1x768_S4x4096x768_0_1_2 : S1x1x768.BroadcastsInDim S4x4096x768 (![0, 1, 2] : Fin 3 → Fin S4x4096x768.rank)
  slices_S4x4096x768_S4x4096x256_0_0_0 : S4x4096x768.Slices ![0, 0, 0] S4x4096x256
  slices_S4x4096x768_S4x4096x256_0_0_256 : S4x4096x768.Slices ![0, 0, 256] S4x4096x256
  slices_S4x4096x768_S4x4096x256_0_0_512 : S4x4096x768.Slices ![0, 0, 512] S4x4096x256
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S256_S1x1x256_2 : S256.BroadcastsInDim S1x1x256 (![2] : Fin 1 → Fin S1x1x256.rank)
  bcast_S1x1x256_S4x4096x256_0_1_2 : S1x1x256.BroadcastsInDim S4x4096x256 (![0, 1, 2] : Fin 3 → Fin S4x4096x256.rank)
  transposes_S4x4096x256_S4x256x4096_0_2_1 : S4x4096x256.Transposes [0, 2, 1] S4x256x4096
  shapeCasts_S4x256x4096_S4x256x64x64 : S4x256x4096.ShapeCasts S4x256x64x64
  dot_S4x4096x256_S768x256_S4x4096x768_2_1_01_0_n_n_wf : DotDims.WF S4x4096x256 S768x256 S4x4096x768 [2] [1] [0, 1] [0] [] []
  dot_S4x4096x256_S4x4096x256_S4x4096x4096_2_2_1_1_0_0_wf : DotDims.WF S4x4096x256 S4x4096x256 S4x4096x4096 [2] [2] [1] [1] [0] [0]
  dot_S4x4096x4096_S4x4096x256_S4x4096x256_2_1_1_2_0_0_wf : DotDims.WF S4x4096x4096 S4x4096x256 S4x4096x256 [2] [1] [1] [2] [0] [0]
  dot_S4x4096x256_S256x256_S4x4096x256_2_1_01_0_n_n_wf : DotDims.WF S4x4096x256 S256x256 S4x4096x256 [2] [1] [0, 1] [0] [] []

variable [Facts₀]

def dot_S4x4096x256_S768x256_S4x4096x768_2_1_01_0_n_n : DotDims S4x4096x256 S768x256 S4x4096x768 where
  lhsContracting := [2]
  rhsContracting := [1]
  lhsNonContracting := [0, 1]
  rhsNonContracting := [0]
  lhsBatch := []
  rhsBatch := []
  wf := dot_S4x4096x256_S768x256_S4x4096x768_2_1_01_0_n_n_wf
def dot_S4x4096x256_S4x4096x256_S4x4096x4096_2_2_1_1_0_0 : DotDims S4x4096x256 S4x4096x256 S4x4096x4096 where
  lhsContracting := [2]
  rhsContracting := [2]
  lhsNonContracting := [1]
  rhsNonContracting := [1]
  lhsBatch := [0]
  rhsBatch := [0]
  wf := dot_S4x4096x256_S4x4096x256_S4x4096x4096_2_2_1_1_0_0_wf
def dot_S4x4096x4096_S4x4096x256_S4x4096x256_2_1_1_2_0_0 : DotDims S4x4096x4096 S4x4096x256 S4x4096x256 where
  lhsContracting := [2]
  rhsContracting := [1]
  lhsNonContracting := [1]
  rhsNonContracting := [2]
  lhsBatch := [0]
  rhsBatch := [0]
  wf := dot_S4x4096x4096_S4x4096x256_S4x4096x256_2_1_1_2_0_0_wf
def dot_S4x4096x256_S256x256_S4x4096x256_2_1_01_0_n_n : DotDims S4x4096x256 S256x256 S4x4096x256 where
  lhsContracting := [2]
  rhsContracting := [1]
  lhsNonContracting := [0, 1]
  rhsNonContracting := [0]
  lhsBatch := []
  rhsBatch := []
  wf := dot_S4x4096x256_S256x256_S4x4096x256_2_1_01_0_n_n_wf

class Facts : Prop extends Facts₀ where

variable [Facts]
-- ==== Proof.IdealFrame.Base.lean ====
import proofs.«406710_j33887291965459_3_alg».proof.Proof.Gen.KernelIdeal.Launch
import proofs.«406710_j33887291965459_3_alg».proof.Proof.Gen.KernelIdeal.Skeleton
import proofs.«406710_j33887291965459_3_alg».proof.Proof.Gen.KernelIdeal.Points
import proofs.«406710_j33887291965459_3_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

abbrev condKV (i : grid0.Coords) : Prop := k0_cond1 i = 1#1
abbrev condQ (i : grid0.Coords) : Prop := k0_cond2 i = 1#1
abbrev condO (i : grid0.Coords) : Prop := k0_cond3 i = 1#1

theorem hcondKV : ∀ t : Fin cfg0.N, condKV (grid0.coords t) ↔ (t.val / 4) % 4 = 0 :=
  (by decide +kernel : ∀ t : Fin grid0.N, condKV (grid0.coords t) ↔ (t.val / 4) % 4 = 0)
theorem hcondQ : ∀ t : Fin cfg0.N, condQ (grid0.coords t) ↔ t.val % 4 = 0 :=
  (by decide +kernel : ∀ t : Fin grid0.N, condQ (grid0.coords t) ↔ t.val % 4 = 0)
theorem hcondO : ∀ t : Fin cfg0.N, condO (grid0.coords t) ↔ t.val % 4 = 3 :=
  (by decide +kernel : ∀ t : Fin grid0.N, condO (grid0.coords t) ↔ t.val % 4 = 3)

abbrev ms0 (t : Fin cfg0.N) : Memref sig .tc .vmem S1x256x4096 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S768x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S768x1 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S256x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x256x1024 .f32 := win0_5.stage (cfg0.slots t 5)
abbrev hs5 (t : Fin cfg0.N) : (ms5 t).IsWhole := hstage0_5 ((cfg0.slots t 5).cast nbuf0_5)

abbrev scK : Memref sig .tc .vmem S256x4096 .bf16 := Memref.whole cc0_scratch0
abbrev scV : Memref sig .tc .vmem S256x4096 .bf16 := Memref.whole cc0_scratch1
abbrev scQ : Memref sig .tc .vmem S256x1024 .bf16 := Memref.whole cc0_scratch2
abbrev scM : Memref sig .tc .vmem S1024x1 .f32 := Memref.whole cc0_scratch3
abbrev scL : Memref sig .tc .vmem S1024x1 .f32 := Memref.whole cc0_scratch4
abbrev scA : Memref sig .tc .vmem S1024x256 .f32 := Memref.whole cc0_scratch5

theorem PhiA_eq (c : Dev nD) :
    (Pipeline.ΦA spec0 c : sProp 𝕄)
      = iprop(iprop((∃ d, owns (c : Thread nD τ) scK fullShare d) ∗ (∃ d, owns (c : Thread nD τ) scV fullShare d)
          ∗ (∃ d, owns (c : Thread nD τ) scQ fullShare d) ∗ (∃ d, owns (c : Thread nD τ) scM fullShare d)
          ∗ (∃ d, owns (c : Thread nD τ) scL fullShare d) ∗ (∃ d, owns (c : Thread nD τ) scA fullShare d)) ∗ (∃ r, prngReg c r)) := by
  unfold Pipeline.ΦA; rw [scopedRest0_eq]; simp only [scK, scV, scQ, scM, scL, scA, owns_whole]; try rfl

end Cert.KernelIdeal.Body

end
-- ==== Proof.IdealFrame.Steps.lean ====
import proofs.«406710_j33887291965459_3_alg».proof.Proof.IdealFrame.Base
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem off2_zero : (![0, 0] : Fin 2 → Nat) = fun _ => 0 := by funext a; fin_cases a <;> rfl
theorem off3_zero : (![0, 0, 0] : Fin 3 → Nat) = fun _ => 0 := by funext a; fin_cases a <;> rfl

theorem read_writes_cons_whole {sig' : RefSig} {κ : Kind} {sp : Space} {S : Shape} {e : EltTy} {Val : EltTy → Type}
    (v : View sig' κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

theorem read_writes_cons_overlay {sig' : RefSig} {κ : Kind} {sp : Space} {S : Shape} {e : EltTy} {Val : EltTy → Type}
    (v : View sig' κ sp S e) (f : v.ty.Contents Val) (p : View.Piece Val S e) (L : List (View.Piece Val S e)) :
    v.read Val (v.writes Val f (p :: L)) = p.1.overlay (v.read Val (v.writes Val f L)) p.2 := by
  funext y
  obtain ⟨r, w⟩ := p
  by_cases hy : y ∈ r.set
  · obtain ⟨x, rfl⟩ : ∃ x, r.emb x = y := r.exists_idx_of_mem hy
    exact (View.read_writes_cons_emb v f r w L x).trans (Rect.overlay_emb r _ w x).symm
  · rw [Rect.overlay_of_not_mem _ _ _ hy, View.writes_cons,
      View.read_slice_write_of_not_mem r _ _ _ (by rw [Rect.map_emb_univ]; exact hy)]

theorem off4_eq_off2 (i : grid0.Coords) : k0_off4 i = k0_off2 i := rfl

theorem readCov_cons_of_off_eq {sig' : RefSig} {κ : Kind} {sp : Space} {S : Shape} {e : EltTy} {Val : EltTy → Type}
    [∀ e, Nonempty (Val e)] (v : View sig' κ sp S e) {off off' size : Fin S.rank → Nat} (h : off' = off)
    (p : ∀ a, off a + size a ≤ S.size a) (p' : ∀ a, off' a + size a ≤ S.size a)
    (w : (Rect.unit off size p).shape.Idx → Val e) (L : List (View.Piece Val S e)) :
    v.readCov ((⟨Rect.unit off size p, w⟩ : View.Piece Val S e) :: L) (Rect.unit off' size p').toLoadRect = w := by
  subst h
  exact View.readCov_cons_toLoadRect v _ w L

theorem readCov_tile {sig' : RefSig} {κ : Kind} {sp : Space} (v : View sig' κ sp S256x4096 .bf16) (i : grid0.Coords)
    (p2 : ∀ a, (k0_off2 i) a + S256x1024.size a ≤ S256x4096.size a) (p4 : ∀ a, (k0_off4 i) a + S256x1024.size a ≤ S256x4096.size a)
    (w : Vec F S256x1024 .bf16) (L : List (View.Piece (Elt F) S256x4096 .bf16)) :
    v.readCov ((⟨Rect.unit (s := S256x4096) (k0_off2 i) S256x1024.size p2, w⟩ : View.Piece (Elt F) S256x4096 .bf16) :: L)
        (Rect.unit (s := S256x4096) (k0_off4 i) S256x1024.size p4).toLoadRect = w :=
  readCov_cons_of_off_eq v (off4_eq_off2 i) p2 p4 w L

def wQ (x1 : Vec F S768x256 .f32) : Vec F S256x256 .f32 := View.ld x1 (Rect.unit (s := S768x256) ![0, 0] S256x256.size inb_S768x256_S256x256_0_0)
def wK (x1 : Vec F S768x256 .f32) : Vec F S256x256 .f32 := View.ld x1 (Rect.unit (s := S768x256) ![256, 0] S256x256.size inb_S768x256_S256x256_256_0)
def wV (x1 : Vec F S768x256 .f32) : Vec F S256x256 .f32 := View.ld x1 (Rect.unit (s := S768x256) ![512, 0] S256x256.size inb_S768x256_S256x256_512_0)
def bQ (x2 : Vec F S768x1 .f32) : Vec F S256x1 .f32 := View.ld x2 (Rect.unit (s := S768x1) ![0, 0] S256x1.size inb_S768x1_S256x1_0_0)
def bK (x2 : Vec F S768x1 .f32) : Vec F S256x1 .f32 := View.ld x2 (Rect.unit (s := S768x1) ![256, 0] S256x1.size inb_S768x1_S256x1_256_0)
def bV (x2 : Vec F S768x1 .f32) : Vec F S256x1 .f32 := View.ld x2 (Rect.unit (s := S768x1) ![512, 0] S256x1.size inb_S768x1_S256x1_512_0)

def xKt (i : grid0.Coords) (h : condKV i) (x0 : Vec F S1x256x4096 .f32) : Vec F S1x256x1024 .f32 :=
  View.ld x0 (Rect.unit (s := S1x256x4096) (k0_off1 i) S1x256x1024.size (k0_off1_inb i h))
def xQt (i : grid0.Coords) (h : condQ i) (x0 : Vec F S1x256x4096 .f32) : Vec F S1x256x1024 .f32 :=
  View.ld x0 (Rect.unit (s := S1x256x4096) (k0_off3 i) S1x256x1024.size (k0_off3_inb i h))
def xOt (i : grid0.Coords) (h : condO i) (x0 : Vec F S1x256x4096 .f32) : Vec F S1x256x1024 .f32 :=
  View.ld x0 (Rect.unit (s := S1x256x4096) (k0_off5 i) S1x256x1024.size (k0_off5_inb i h))

def newK (i : grid0.Coords) (h : condKV i) (x0 : Vec F S1x256x4096 .f32) (x1 : Vec F S768x256 .f32) (x2 : Vec F S768x1 .f32) : FVec F S256x1024 .bf16 :=
  k0_pay5 (xKt i h x0) (wK x1) (bK x2)
def newV (i : grid0.Coords) (h : condKV i) (x0 : Vec F S1x256x4096 .f32) (x1 : Vec F S768x256 .f32) (x2 : Vec F S768x1 .f32) : FVec F S256x1024 .bf16 :=
  k0_pay6 (xKt i h x0) (wV x1) (bV x2)
def newQ (i : grid0.Coords) (h : condQ i) (x0 : Vec F S1x256x4096 .f32) (x1 : Vec F S768x256 .f32) (x2 : Vec F S768x1 .f32) : FVec F S256x1024 .bf16 :=
  k0_pay7 (xQt i h x0) (wQ x1) (bQ x2)

def tile (i : grid0.Coords) (s : Vec F S256x4096 .bf16) : Vec F S256x1024 .bf16 :=
  View.ld s (Rect.unit (s := S256x4096) (k0_off4 i) S256x1024.size (k0_off4_inb i))
def putTile (i : grid0.Coords) (h : condKV i) (s : Vec F S256x4096 .bf16) (w : FVec F S256x1024 .bf16) : Vec F S256x4096 .bf16 :=
  (Rect.unit (s := S256x4096) (k0_off2 i) S256x1024.size (k0_off2_inb i h)).overlay s w

def stepM (Q Kt : Vec F S256x1024 .bf16) (M : Vec F S1024x1 .f32) : FVec F S1024x1 .f32 := k0_pay2 (k0_pay12 Q Kt M)
def stepL (Q Kt : Vec F S256x1024 .bf16) (M L : Vec F S1024x1 .f32) : FVec F S1024x1 .f32 := k0_pay15 Q Kt M L
def stepA (Q Kt Vt : Vec F S256x1024 .bf16) (M : Vec F S1024x1 .f32) (A : Vec F S1024x256 .f32) : FVec F S1024x256 .f32 :=
  k0_pay1 Vt (k0_pay13 Q Kt M) (k0_pay16 Q Kt M) (constant S1024x256 .f32 0x00000000#32) A
def outB (A : Vec F S1024x256 .f32) (L : Vec F S1024x1 .f32) (x3 : Vec F S256x256 .f32) (x4 : Vec F S256x1 .f32) (xo : Vec F S1x256x1024 .f32) : FVec F S1x256x1024 .f32 :=
  k0_pay3 A L x3 x4 xo

section Next
variable (i : grid0.Coords) (x0 : Vec F S1x256x4096 .f32) (x1 : Vec F S768x256 .f32) (x2 : Vec F S768x1 .f32) (x3 : Vec F S256x256 .f32) (x4 : Vec F S256x1 .f32)
  (xi5 : Vec F S1x256x1024 .f32) (sK sV : Vec F S256x4096 .bf16) (sQ : Vec F S256x1024 .bf16) (sM sL : Vec F S1024x1 .f32) (sA : Vec F S1024x256 .f32)

def nK : Vec F S256x4096 .bf16 := if h : condKV i then putTile i h sK (newK i h x0 x1 x2) else sK
def nV : Vec F S256x4096 .bf16 := if h : condKV i then putTile i h sV (newV i h x0 x1 x2) else sV
def useK : Vec F S256x1024 .bf16 := if h : condKV i then newK i h x0 x1 x2 else tile i sK
def useV : Vec F S256x1024 .bf16 := if h : condKV i then newV i h x0 x1 x2 else tile i sV
def nQ : Vec F S256x1024 .bf16 := if h : condQ i then newQ i h x0 x1 x2 else sQ
def m0 : Vec F S1024x1 .f32 := if condQ i then k0_pay8 (F := F) else sM
def l0 : Vec F S1024x1 .f32 := if condQ i then k0_pay9 (F := F) else sL
def a0 : Vec F S1024x256 .f32 := if condQ i then k0_pay10 (F := F) else sA
def nM : Vec F S1024x1 .f32 := stepM (nQ i x0 x1 x2 sQ) (useK i x0 x1 x2 sK) (m0 i sM)
def nL : Vec F S1024x1 .f32 := stepL (nQ i x0 x1 x2 sQ) (useK i x0 x1 x2 sK) (m0 i sM) (l0 i sL)
def nA : Vec F S1024x256 .f32 := stepA (nQ i x0 x1 x2 sQ) (useK i x0 x1 x2 sK) (useV i x0 x1 x2 sV) (m0 i sM) (a0 i sA)
def nO : Vec F S1x256x1024 .f32 :=
  if h : condO i then outB (nA i x0 x1 x2 sK sV sQ sM sA) (nL i x0 x1 x2 sK sQ sM sL) x3 x4 (xOt i h x0) else xi5
end Next

section Body
variable (c : Dev nD) (i : grid0.Coords) (arg3 : Memref sig .tc .vmem S1x256x4096 .f32) (harg3 : arg3.IsWhole) (arg4 : Memref sig .tc .vmem S768x256 .f32) (harg4 : arg4.IsWhole) (arg5 : Memref sig .tc .vmem S768x1 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x1024 .f32) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)

def owned (x0 : Vec F S1x256x4096 .f32) (x1 : Vec F S768x256 .f32) (x2 : Vec F S768x1 .f32) (x3 : Vec F S256x256 .f32) (x4 : Vec F S256x1 .f32) (x5 : Vec F S1x256x1024 .f32) (sK sV : Vec F S256x4096 .bf16) (sQ : Vec F S256x1024 .bf16) (sM sL : Vec F S1024x1 .f32) (sA : Vec F S1024x256 .f32) : sProp 𝕄 :=
  iprop(owns (c : Thread nD τ) arg3 fullShare x0 ∗ owns (c : Thread nD τ) arg4 fullShare x1 ∗ owns (c : Thread nD τ) arg5 fullShare x2
    ∗ owns (c : Thread nD τ) arg6 fullShare x3 ∗ owns (c : Thread nD τ) arg7 fullShare x4 ∗ owns (c : Thread nD τ) arg8 fullShare x5
    ∗ owns (c : Thread nD τ) arg9 fullShare sK ∗ owns (c : Thread nD τ) arg10 fullShare sV ∗ owns (c : Thread nD τ) arg11 fullShare sQ
    ∗ owns (c : Thread nD τ) arg12 fullShare sM ∗ owns (c : Thread nD τ) arg13 fullShare sL ∗ owns (c : Thread nD τ) arg14 fullShare sA)

def raw (f3 : arg3.view.ty.Contents (Elt F)) (f4 : arg4.view.ty.Contents (Elt F)) (f5 : arg5.view.ty.Contents (Elt F)) (f6 : arg6.view.ty.Contents (Elt F)) (f7 : arg7.view.ty.Contents (Elt F)) (f8 : arg8.view.ty.Contents (Elt F)) (f9 : arg9.view.ty.Contents (Elt F)) (f10 : arg10.view.ty.Contents (Elt F)) (f11 : arg11.view.ty.Contents (Elt F)) (f12 : arg12.view.ty.Contents (Elt F)) (f13 : arg13.view.ty.Contents (Elt F)) (f14 : arg14.view.ty.Contents (Elt F)) : sProp 𝕄 :=
  iprop((arg3.view.loc (c : Thread nD τ) ↦[arg3.view.set]{fullShare} f3)
    ∗ (arg4.view.loc (c : Thread nD τ) ↦[arg4.view.set]{fullShare} f4)
    ∗ (arg5.view.loc (c : Thread nD τ) ↦[arg5.view.set]{fullShare} f5)
    ∗ (arg6.view.loc (c : Thread nD τ) ↦[arg6.view.set]{fullShare} f6)
    ∗ (arg7.view.loc (c : Thread nD τ) ↦[arg7.view.set]{fullShare} f7)
    ∗ (arg8.view.loc (c : Thread nD τ) ↦[arg8.view.set]{fullShare} f8)
    ∗ (arg9.view.loc (c : Thread nD τ) ↦[arg9.view.set]{fullShare} f9)
    ∗ (arg10.view.loc (c : Thread nD τ) ↦[arg10.view.set]{fullShare} f10)
    ∗ (arg11.view.loc (c : Thread nD τ) ↦[arg11.view.set]{fullShare} f11)
    ∗ (arg12.view.loc (c : Thread nD τ) ↦[arg12.view.set]{fullShare} f12)
    ∗ (arg13.view.loc (c : Thread nD τ) ↦[arg13.view.set]{fullShare} f13)
    ∗ (arg14.view.loc (c : Thread nD τ) ↦[arg14.view.set]{fullShare} f14))

variable (x0 : Vec F S1x256x4096 .f32) (x1 : Vec F S768x256 .f32) (x2 : Vec F S768x1 .f32) (x3 : Vec F S256x256 .f32) (x4 : Vec F S256x1 .f32) (sK sV : Vec F S256x4096 .bf16) (sQ : Vec F S256x1024 .bf16) (sM sL : Vec F S1024x1 .f32) (sA : Vec F S1024x256 .f32)

/-- The body's triple: from its twelve buffers owned at given contents to the same buffers at new contents. -/
def Triple (x5 y5 : Vec F S1x256x1024 .f32) (yK yV : Vec F S256x4096 .bf16) (yQ : Vec F S256x1024 .bf16) (yM yL : Vec F S1024x1 .f32) (yA : Vec F S1024x256 .f32) : Prop :=
  ∀ (E : Set ℕ) (K : PUnit → sProp 𝕄),
    iprop(owned c arg3 arg4 arg5 arg6 arg7 arg8 arg9 arg10 arg11 arg12 arg13 arg14 x0 x1 x2 x3 x4 x5 sK sV sQ sM sL sA ∗ (owned c arg3 arg4 arg5 arg6 arg7 arg8 arg9 arg10 arg11 arg12 arg13 arg14 x0 x1 x2 x3 x4 y5 yK yV yQ yM yL yA -∗ K ⟨⟩))
      ⊢ wp frame (wpE (defs₀ (F := F)) Variants.none c none) E (cc0__flash_attn_kernel i arg3 harg3 arg4 harg4 arg5 harg5 arg6 harg6 arg7 harg7 arg8 harg8 arg9 harg9 arg10 harg10 arg11 harg11 arg12 harg12 arg13 harg13 arg14 harg14) K

/-- A run of the body found by symbolic execution: what each buffer it may write ends with, and the value that reads as. -/
structure Run (y5 : Vec F S1x256x1024 .f32 → Vec F S1x256x1024 .f32) (yK yV : Vec F S256x4096 .bf16) (yQ : Vec F S256x1024 .bf16) (yM yL : Vec F S1024x1 .f32) (yA : Vec F S1024x256 .f32) where
  fO : Vec F S1x256x1024 .f32 → arg8.view.ty.Contents (Elt F)
  fK : arg9.view.ty.Contents (Elt F)
  fV : arg10.view.ty.Contents (Elt F)
  fQ : arg11.view.ty.Contents (Elt F)
  fM : arg12.view.ty.Contents (Elt F)
  fL : arg13.view.ty.Contents (Elt F)
  fA : arg14.view.ty.Contents (Elt F)
  run : ∀ (xi5 : Vec F S1x256x1024 .f32) (E : Set ℕ) (K : PUnit → sProp 𝕄),
    iprop(raw c arg3 arg4 arg5 arg6 arg7 arg8 arg9 arg10 arg11 arg12 arg13 arg14 (harg3.unread x0) (harg4.unread x1) (harg5.unread x2) (harg6.unread x3) (harg7.unread x4) (harg8.unread xi5) (harg9.unread sK) (harg10.unread sV) (harg11.unread sQ) (harg12.unread sM) (harg13.unread sL) (harg14.unread sA)
      ∗ (raw c arg3 arg4 arg5 arg6 arg7 arg8 arg9 arg10 arg11 arg12 arg13 arg14 (harg3.unread x0) (harg4.unread x1) (harg5.unread x2) (harg6.unread x3) (harg7.unread x4) (fO xi5) fK fV fQ fM fL fA -∗ K ⟨⟩))
      ⊢ wp frame (wpE (defs₀ (F := F)) Variants.none c none) E (cc0__flash_attn_kernel i arg3 harg3 arg4 harg4 arg5 harg5 arg6 harg6 arg7 harg7 arg8 harg8 arg9 harg9 arg10 harg10 arg11 harg11 arg12 harg12 arg13 harg13 arg14 harg14) K
  h5 : ∀ xi5, arg8.view.read (Elt F) (fO xi5) = y5 xi5
  hK : arg9.view.read (Elt F) fK = yK
  hV : arg10.view.read (Elt F) fV = yV
  hQ : arg11.view.read (Elt F) fQ = yQ
  hM : arg12.view.read (Elt F) fM = yM
  hL : arg13.view.read (Elt F) fL = yL
  hA : arg14.view.read (Elt F) fA = yA

variable {c i arg3 harg3 arg4 harg4 arg5 harg5 arg6 harg6 arg7 harg7 arg8 harg8 arg9 harg9 arg10 harg10 arg11 harg11 arg12 harg12 arg13 harg13 arg14 harg14 x0 x1 x2 x3 x4 sK sV sQ sM sL sA}

set_option maxHeartbeats 1000000 in
/-- A run gives the triple to the values its final contents read as. -/
theorem Run.spec {y5 : Vec F S1x256x1024 .f32 → Vec F S1x256x1024 .f32} {yK yV : Vec F S256x4096 .bf16} {yQ : Vec F S256x1024 .bf16} {yM yL : Vec F S1024x1 .f32} {yA : Vec F S1024x256 .f32}
    (R : Run c i arg3 harg3 arg4 harg4 arg5 harg5 arg6 harg6 arg7 harg7 arg8 harg8 arg9 harg9 arg10 harg10 arg11 harg11 arg12 harg12 arg13 harg13 arg14 harg14 x0 x1 x2 x3 x4 sK sV sQ sM sL sA y5 yK yV yQ yM yL yA) (xi5 : Vec F S1x256x1024 .f32) :
    Triple c i arg3 harg3 arg4 harg4 arg5 harg5 arg6 harg6 arg7 harg7 arg8 harg8 arg9 harg9 arg10 harg10 arg11 harg11 arg12 harg12 arg13 harg13 arg14 harg14 x0 x1 x2 x3 x4 sK sV sQ sM sL sA xi5 (y5 xi5) yK yV yQ yM yL yA := by
  intro E K
  unfold owned owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%fK, %hfK, HK⟩, ⟨%fV, %hfV, HV⟩, ⟨%fQ, %hfQ, HQ⟩, ⟨%fM, %hfM, HM⟩, ⟨%fL, %hfL, HL⟩, ⟨%fA, %hfA, HA⟩⟩, Hk⟩
  obtain rfl := harg3.eq_unread hf0; obtain rfl := harg4.eq_unread hf1; obtain rfl := harg5.eq_unread hf2
  obtain rfl := harg6.eq_unread hf3; obtain rfl := harg7.eq_unread hf4; obtain rfl := harg8.eq_unread hf5
  obtain rfl := harg9.eq_unread hfK; obtain rfl := harg10.eq_unread hfV; obtain rfl := harg11.eq_unread hfQ
  obtain rfl := harg12.eq_unread hfM; obtain rfl := harg13.eq_unread hfL; obtain rfl := harg14.eq_unread hfA
  iapply (R.run xi5 E K)
  unfold raw
  isplitl [H0 H1 H2 H3 H4 H5 HK HV HQ HM HL HA]; · iframe
  iintro ⟨H0, H1, H2, H3, H4, H5, HK, HV, HQ, HM, HL, HA⟩
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact R.h5 xi5
    iexact H5
  isplitl [HK]
  · iexists _; isplitr; · ipureintro; exact R.hK
    iexact HK
  isplitl [HV]
  · iexists _; isplitr; · ipureintro; exact R.hV
    iexact HV
  isplitl [HQ]
  · iexists _; isplitr; · ipureintro; exact R.hQ
    iexact HQ
  isplitl [HM]
  · iexists _; isplitr; · ipureintro; exact R.hM
    iexact HM
  isplitl [HL]
  · iexists _; isplitr; · ipureintro; exact R.hL
    iexact HL
  iexists _; isplitr; · ipureintro; exact R.hA
  iexact HA

end Body

end Cert.KernelIdeal.Body

end
-- ==== Proof.IdealFrame.RunA.lean ====
import proofs.«406710_j33887291965459_3_alg».proof.Proof.IdealFrame.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg3 : Memref sig .tc .vmem S1x256x4096 .f32) (harg3 : arg3.IsWhole) (arg4 : Memref sig .tc .vmem S768x256 .f32) (harg4 : arg4.IsWhole) (arg5 : Memref sig .tc .vmem S768x1 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x1024 .f32) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole) (hc1 : condKV i) (hc2 : condQ i) (hc3 : ¬condO i) (x0 : Vec F S1x256x4096 .f32) (x1 : Vec F S768x256 .f32) (x2 : Vec F S768x1 .f32) (x3 : Vec F S256x256 .f32) (x4 : Vec F S256x1 .f32) (sK sV : Vec F S256x4096 .bf16) (sQ : Vec F S256x1024 .bf16) (sM sL : Vec F S1024x1 .f32) (sA : Vec F S1024x256 .f32)
include hc1 hc2 hc3

set_option maxHeartbeats 4000000 in
noncomputable def runA : Run c i arg3 harg3 arg4 harg4 arg5 harg5 arg6 harg6 arg7 harg7 arg8 harg8 arg9 harg9 arg10 harg10 arg11 harg11 arg12 harg12 arg13 harg13 arg14 harg14 x0 x1 x2 x3 x4 sK sV sQ sM sL sA
    (fun xi5 => xi5)
    (putTile i hc1 sK (newK i hc1 x0 x1 x2))
    (putTile i hc1 sV (newV i hc1 x0 x1 x2))
    (newQ i hc2 x0 x1 x2)
    (stepM (newQ i hc2 x0 x1 x2) (newK i hc1 x0 x1 x2) (k0_pay8 (F := F)))
    (stepL (newQ i hc2 x0 x1 x2) (newK i hc1 x0 x1 x2) (k0_pay8 (F := F)) (k0_pay9 (F := F)))
    (stepA (newQ i hc2 x0 x1 x2) (newK i hc1 x0 x1 x2) (newV i hc1 x0 x1 x2) (k0_pay8 (F := F)) (k0_pay10 (F := F))) := by
  refine ⟨?_, ?_, ?_, ?_, ?_, ?_, ?_, fun xi5 E K => ?run, fun xi5 => ?h5, ?hK, ?hV, ?hQ, ?hM, ?hL, ?hA⟩
  case run =>
    unfold raw
    simp only [cc0__flash_attn_kernel_eq_skeleton]; unfold cc0__flash_attn_kernel_skel
    simp only [k0_part1_eq_skeleton]; unfold k0_part1_skel
    iintro ⟨⟨H0, H1, H2, H3, H4, H5, HK, HV, HQ, HM, HL, HA⟩, Hk⟩
    sl_exec (disch := first | exact hc1 | exact hc2 | exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HK]; · iexact HK
    isplitl [HV]; · iexact HV
    isplitl [HQ]; · iexact HQ
    isplitl [HM]; · iexact HM
    isplitl [HL]; · iexact HL
    iexact HA
  case h5 => exact harg8.read_unread _
  case hK =>
    sl_unfold_run_names
    rw [read_writes_cons_overlay, View.writes_nil, harg9.read_unread]
    simp only [View.readAt_eq_ld, harg3.read_unread, harg4.read_unread, harg5.read_unread]
    rfl
  case hV =>
    sl_unfold_run_names
    rw [read_writes_cons_overlay, View.writes_nil, harg10.read_unread]
    simp only [View.readAt_eq_ld, harg3.read_unread, harg4.read_unread, harg5.read_unread]
    rfl
  case hQ =>
    sl_unfold_run_names
    refine (read_writes_cons_whole (S := S256x1024) arg11.view _ off2_zero _ _ _).trans ?_
    simp only [View.readAt_eq_ld, harg3.read_unread, harg4.read_unread, harg5.read_unread]
    rfl
  case hM =>
    refine (read_writes_cons_whole (S := S1024x1) arg12.view _ off2_zero _ _ _).trans ?_
    sl_unfold_run_names
    simp only [View.readCov_cons_toLoadRect, View.readAt_eq_ld, harg3.read_unread, harg4.read_unread, harg5.read_unread]
    rw [readCov_tile]
    rfl
  case hL =>
    refine (read_writes_cons_whole (S := S1024x1) arg13.view _ off2_zero _ _ _).trans ?_
    sl_unfold_run_names
    simp only [View.readCov_cons_toLoadRect, View.readAt_eq_ld, harg3.read_unread, harg4.read_unread, harg5.read_unread]
    rw [readCov_tile]
    rfl
  case hA =>
    refine (read_writes_cons_whole (S := S1024x256) arg14.view _ off2_zero _ _ _).trans ?_
    sl_unfold_run_names
    simp only [View.readCov_cons_toLoadRect, View.readAt_eq_ld, harg3.read_unread, harg4.read_unread, harg5.read_unread]
    rw [readCov_tile, readCov_tile]
    rfl

end Cert.KernelIdeal.Body

end
-- ==== Proof.IdealFrame.RunB.lean ====
import proofs.«406710_j33887291965459_3_alg».proof.Proof.IdealFrame.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords) (arg3 : Memref sig .tc .vmem S1x256x4096 .f32) (harg3 : arg3.IsWhole) (arg4 : Memref sig .tc .vmem S768x256 .f32) (harg4 : arg4.IsWhole) (arg5 : Memref sig .tc .vmem S768x1 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x1024 .f32) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole) (hc1 : condKV i) (hc2 : ¬condQ i) (hc3 : ¬condO i) (x0 : Vec F S1x256x4096 .f32) (x1 : Vec F S768x256 .f32) (x2 : Vec F S768x1 .f32) (x3 : Vec F S256x256 .f32) (x4 : Vec F S256x1 .f32) (sK sV : Vec F S256x4096 .bf16) (sQ : Vec F S256x1024 .bf16) (sM sL : Vec F S1024x1 .f32) (sA : Vec F S1024x256 .f32)
include hc1 hc2 hc3

set_option maxHeartbeats 4000000 in
noncomputable def runB : Run c i arg3 harg3 arg4 harg4 arg5 harg5 arg6 harg6 arg7 harg7 arg8 harg8 arg9 harg9 arg10 harg10 arg11 harg11 arg12 harg12 arg13 harg13 arg14 harg14 x0 x1 x2 x3 x4 sK sV sQ sM sL sA
    (fun xi5 => xi5)
    (putTile i hc1 sK (newK i hc1 x0 x1 x2))
    (putTile i hc1 sV (newV i hc1 x0 x1 x2))
    sQ
    (stepM sQ (newK i hc1 x0 x1 x2) sM)
    (stepL sQ (newK i hc1 x0 x1 x2) sM sL)
    (stepA sQ (newK i hc1 x0 x1 x2) (newV i hc1 x0 x1 x2) sM sA) := by
  refine ⟨?_, ?_, ?_, ?_, ?_, ?_, ?_, fun xi5 E K => ?run, fun xi5 => ?h5, ?hK, ?hV, ?hQ, ?hM, ?hL, ?hA⟩
  case run =>
    unfold raw
    simp only [cc0__flash_attn_kernel_eq_skeleton]; unfold cc0__flash_attn_kernel_skel
    simp only [k0_part1_eq_skeleton]; unfold k0_part1_skel
    iintro ⟨⟨H0, H1, H2, H3, H4, H5, HK, HV, HQ, HM, HL, HA⟩, Hk⟩
    sl_exec (disch := first | exact hc1 | exact hc2 | exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HK]; · iexact HK
    isplitl [HV]; · iexact HV
    isplitl [HQ]; · iexact HQ
    isplitl [HM]; · iexact HM
    isplitl [HL]; · iexact HL
    iexact HA
  case h5 => exact harg8.read_unread _
  case hK =>
    sl_unfold_run_names
    refine (read_writes_cons_overlay arg9.view _ _ _).trans ?_
    simp only [View.writes_nil, View.readAt_eq_ld, harg3.read_unread, harg4.read_unread, harg5.read_unread, harg9.read_unread]
    rfl
  case hV =>
    sl_unfold_run_names
    refine (read_writes_cons_overlay arg10.view _ _ _).trans ?_
    simp only [View.writes_nil, View.readAt_eq_ld, harg3.read_unread, harg4.read_unread, harg5.read_unread, harg10.read_unread]
    rfl
  case hQ => exact harg11.read_unread _
  case hM =>
    refine (read_writes_cons_whole (S := S1024x1) arg12.view _ off2_zero _ _ _).trans ?_
    sl_unfold_run_names
    simp only [View.readAt_eq_ld, harg3.read_unread, harg4.read_unread, harg5.read_unread, harg11.read_unread, harg12.read_unread,
      View.ld_unit_zero (S := S256x1024) off2_zero, View.ld_unit_zero (S := S1024x1) off2_zero]
    rw [readCov_tile]
    rfl
  case hL =>
    refine (read_writes_cons_whole (S := S1024x1) arg13.view _ off2_zero _ _ _).trans ?_
    sl_unfold_run_names
    simp only [View.readAt_eq_ld, harg3.read_unread, harg4.read_unread, harg5.read_unread, harg11.read_unread, harg12.read_unread, harg13.read_unread,
      View.ld_unit_zero (S := S256x1024) off2_zero, View.ld_unit_zero (S := S1024x1) off2_zero]
    rw [readCov_tile]
    rfl
  case hA =>
    refine (read_writes_cons_whole (S := S1024x256) arg14.view _ off2_zero _ _ _).trans ?_
    sl_unfold_run_names
    simp only [View.readAt_eq_ld, harg3.read_unread, harg4.read_unread, harg5.read_unread, harg11.read_unread, harg12.read_unread, harg14.read_unread,
      View.ld_unit_zero (S := S256x1024) off2_zero, View.ld_unit_zero (S := S1024x1) off2_zero, View.ld_unit_zero (S := S1024x256) off2_zero]
    rw [readCov_tile, readCov_tile]
    rfl

end Cert.KernelIdeal.Body

end
-- ==== Proof.IdealFrame.RunC.lean ====
import proofs.«406710_j33887291965459_3_alg».proof.Proof.IdealFrame.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (c : Dev nD) (i : grid0.Coords) (arg3 : Memref sig .tc .vmem S1x256x4096 .f32) (harg3 : arg3.IsWhole) (arg4 : Memref sig .tc .vmem S768x256 .f32) (harg4 : arg4.IsWhole) (arg5 : Memref sig .tc .vmem S768x1 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x1024 .f32) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole) (hc1 : condKV i) (hc2 : ¬condQ i) (hc3 : condO i) (x0 : Vec F S1x256x4096 .f32) (x1 : Vec F S768x256 .f32) (x2 : Vec F S768x1 .f32) (x3 : Vec F S256x256 .f32) (x4 : Vec F S256x1 .f32) (sK sV : Vec F S256x4096 .bf16) (sQ : Vec F S256x1024 .bf16) (sM sL : Vec F S1024x1 .f32) (sA : Vec F S1024x256 .f32)
include hc1 hc2 hc3

set_option maxHeartbeats 4000000 in
noncomputable def runC : Run c i arg3 harg3 arg4 harg4 arg5 harg5 arg6 harg6 arg7 harg7 arg8 harg8 arg9 harg9 arg10 harg10 arg11 harg11 arg12 harg12 arg13 harg13 arg14 harg14 x0 x1 x2 x3 x4 sK sV sQ sM sL sA
    (fun _ => outB (stepA sQ (newK i hc1 x0 x1 x2) (newV i hc1 x0 x1 x2) sM sA) (stepL sQ (newK i hc1 x0 x1 x2) sM sL) x3 x4 (xOt i hc3 x0))
    (putTile i hc1 sK (newK i hc1 x0 x1 x2))
    (putTile i hc1 sV (newV i hc1 x0 x1 x2))
    sQ
    (stepM sQ (newK i hc1 x0 x1 x2) sM)
    (stepL sQ (newK i hc1 x0 x1 x2) sM sL)
    (stepA sQ (newK i hc1 x0 x1 x2) (newV i hc1 x0 x1 x2) sM sA) := by
  refine ⟨?_, ?_, ?_, ?_, ?_, ?_, ?_, fun xi5 E K => ?run, fun xi5 => ?h5, ?hK, ?hV, ?hQ, ?hM, ?hL, ?hA⟩
  case run =>
    unfold raw
    simp only [cc0__flash_attn_kernel_eq_skeleton]; unfold cc0__flash_attn_kernel_skel
    simp only [k0_part1_eq_skeleton]; unfold k0_part1_skel
    iintro ⟨⟨H0, H1, H2, H3, H4, H5, HK, HV, HQ, HM, HL, HA⟩, Hk⟩
    sl_exec (disch := first | exact hc1 | exact hc2 | exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HK]; · iexact HK
    isplitl [HV]; · iexact HV
    isplitl [HQ]; · iexact HQ
    isplitl [HM]; · iexact HM
    isplitl [HL]; · iexact HL
    iexact HA
  case h5 =>
    refine (read_writes_cons_whole (S := S1x256x1024) arg8.view _ off3_zero _ _ _).trans ?_
    sl_unfold_run_names
    simp only [View.readAt_eq_ld, harg3.read_unread, harg4.read_unread, harg5.read_unread, harg6.read_unread, harg7.read_unread, harg11.read_unread, harg12.read_unread, harg13.read_unread, harg14.read_unread,
      View.ld_unit_zero (S := S256x1024) off2_zero, View.ld_unit_zero (S := S1024x1) off2_zero, View.ld_unit_zero (S := S1024x256) off2_zero, View.ld_unit_zero (S := S256x256) off2_zero, View.ld_unit_zero (S := S256x1) off2_zero]
    rw [readCov_tile, readCov_tile, View.readCov_cons_toLoadRect, View.readCov_cons_toLoadRect]
    rfl
  case hK =>
    sl_unfold_run_names
    refine (read_writes_cons_overlay arg9.view _ _ _).trans ?_
    simp only [View.writes_nil, View.readAt_eq_ld, harg3.read_unread, harg4.read_unread, harg5.read_unread, harg9.read_unread]
    rfl
  case hV =>
    sl_unfold_run_names
    refine (read_writes_cons_overlay arg10.view _ _ _).trans ?_
    simp only [View.writes_nil, View.readAt_eq_ld, harg3.read_unread, harg4.read_unread, harg5.read_unread, harg10.read_unread]
    rfl
  case hQ => exact harg11.read_unread _
  case hM =>
    refine (read_writes_cons_whole (S := S1024x1) arg12.view _ off2_zero _ _ _).trans ?_
    sl_unfold_run_names
    simp only [View.readAt_eq_ld, harg3.read_unread, harg4.read_unread, harg5.read_unread, harg11.read_unread, harg12.read_unread,
      View.ld_unit_zero (S := S256x1024) off2_zero, View.ld_unit_zero (S := S1024x1) off2_zero]
    rw [readCov_tile]
    rfl
  case hL =>
    refine (read_writes_cons_whole (S := S1024x1) arg13.view _ off2_zero _ _ _).trans ?_
    sl_unfold_run_names
    simp only [View.readAt_eq_ld, harg3.read_unread, harg4.read_unread, harg5.read_unread, harg11.read_unread, harg12.read_unread, harg13.read_unread,
      View.ld_unit_zero (S := S256x1024) off2_zero, View.ld_unit_zero (S := S1024x1) off2_zero]
    rw [readCov_tile]
    rfl
  case hA =>
    refine (read_writes_cons_whole (S := S1024x256) arg14.view _ off2_zero _ _ _).trans ?_
    sl_unfold_run_names
    simp only [View.readAt_eq_ld, harg3.read_unread, harg4.read_unread, harg5.read_unread, harg11.read_unread, harg12.read_unread, harg14.read_unread,
      View.ld_unit_zero (S := S256x1024) off2_zero, View.ld_unit_zero (S := S1024x1) off2_zero, View.ld_unit_zero (S := S1024x256) off2_zero]
    rw [readCov_tile, readCov_tile]
    rfl

end Cert.KernelIdeal.Body

end
-- ==== Proof.IdealFrame.RunD.lean ====
import proofs.«406710_j33887291965459_3_alg».proof.Proof.IdealFrame.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg3 : Memref sig .tc .vmem S1x256x4096 .f32) (harg3 : arg3.IsWhole) (arg4 : Memref sig .tc .vmem S768x256 .f32) (harg4 : arg4.IsWhole) (arg5 : Memref sig .tc .vmem S768x1 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x1024 .f32) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole) (hc1 : ¬condKV i) (hc2 : condQ i) (hc3 : ¬condO i) (x0 : Vec F S1x256x4096 .f32) (x1 : Vec F S768x256 .f32) (x2 : Vec F S768x1 .f32) (x3 : Vec F S256x256 .f32) (x4 : Vec F S256x1 .f32) (sK sV : Vec F S256x4096 .bf16) (sQ : Vec F S256x1024 .bf16) (sM sL : Vec F S1024x1 .f32) (sA : Vec F S1024x256 .f32)
include hc1 hc2 hc3

set_option maxHeartbeats 4000000 in
noncomputable def runD : Run c i arg3 harg3 arg4 harg4 arg5 harg5 arg6 harg6 arg7 harg7 arg8 harg8 arg9 harg9 arg10 harg10 arg11 harg11 arg12 harg12 arg13 harg13 arg14 harg14 x0 x1 x2 x3 x4 sK sV sQ sM sL sA
    (fun xi5 => xi5)
    sK
    sV
    (newQ i hc2 x0 x1 x2)
    (stepM (newQ i hc2 x0 x1 x2) (tile i sK) (k0_pay8 (F := F)))
    (stepL (newQ i hc2 x0 x1 x2) (tile i sK) (k0_pay8 (F := F)) (k0_pay9 (F := F)))
    (stepA (newQ i hc2 x0 x1 x2) (tile i sK) (tile i sV) (k0_pay8 (F := F)) (k0_pay10 (F := F))) := by
  refine ⟨?_, ?_, ?_, ?_, ?_, ?_, ?_, fun xi5 E K => ?run, fun xi5 => ?h5, ?hK, ?hV, ?hQ, ?hM, ?hL, ?hA⟩
  case run =>
    unfold raw
    simp only [cc0__flash_attn_kernel_eq_skeleton]; unfold cc0__flash_attn_kernel_skel
    simp only [k0_part1_eq_skeleton]; unfold k0_part1_skel
    iintro ⟨⟨H0, H1, H2, H3, H4, H5, HK, HV, HQ, HM, HL, HA⟩, Hk⟩
    sl_exec (disch := first | exact hc1 | exact hc2 | exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HK]; · iexact HK
    isplitl [HV]; · iexact HV
    isplitl [HQ]; · iexact HQ
    isplitl [HM]; · iexact HM
    isplitl [HL]; · iexact HL
    iexact HA
  case h5 => exact harg8.read_unread _
  case hK => exact harg9.read_unread _
  case hV => exact harg10.read_unread _
  case hQ =>
    refine (read_writes_cons_whole (S := S256x1024) arg11.view _ off2_zero _ _ _).trans ?_
    sl_unfold_run_names
    simp only [View.readAt_eq_ld, harg3.read_unread, harg4.read_unread, harg5.read_unread]
    rfl
  case hM =>
    refine (read_writes_cons_whole (S := S1024x1) arg12.view _ off2_zero _ _ _).trans ?_
    sl_unfold_run_names
    simp only [View.readCov_unit_zero (S := S256x1024) _ off2_zero, View.readCov_unit_zero (S := S1024x1) _ off2_zero,
      View.readAt_eq_ld, harg3.read_unread, harg4.read_unread, harg5.read_unread, harg9.read_unread]
    rfl
  case hL =>
    refine (read_writes_cons_whole (S := S1024x1) arg13.view _ off2_zero _ _ _).trans ?_
    sl_unfold_run_names
    simp only [View.readCov_unit_zero (S := S256x1024) _ off2_zero, View.readCov_unit_zero (S := S1024x1) _ off2_zero,
      View.readAt_eq_ld, harg3.read_unread, harg4.read_unread, harg5.read_unread, harg9.read_unread]
    rfl
  case hA =>
    refine (read_writes_cons_whole (S := S1024x256) arg14.view _ off2_zero _ _ _).trans ?_
    sl_unfold_run_names
    simp only [View.readCov_unit_zero (S := S256x1024) _ off2_zero, View.readCov_unit_zero (S := S1024x1) _ off2_zero,
      View.readCov_unit_zero (S := S1024x256) _ off2_zero,
      View.readAt_eq_ld, harg3.read_unread, harg4.read_unread, harg5.read_unread, harg9.read_unread, harg10.read_unread]
    rfl

end Cert.KernelIdeal.Body

end
-- ==== Proof.IdealFrame.RunE.lean ====
import proofs.«406710_j33887291965459_3_alg».proof.Proof.IdealFrame.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg3 : Memref sig .tc .vmem S1x256x4096 .f32) (harg3 : arg3.IsWhole) (arg4 : Memref sig .tc .vmem S768x256 .f32) (harg4 : arg4.IsWhole) (arg5 : Memref sig .tc .vmem S768x1 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x1024 .f32) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole) (hc1 : ¬condKV i) (hc2 : ¬condQ i) (hc3 : ¬condO i) (x0 : Vec F S1x256x4096 .f32) (x1 : Vec F S768x256 .f32) (x2 : Vec F S768x1 .f32) (x3 : Vec F S256x256 .f32) (x4 : Vec F S256x1 .f32) (sK sV : Vec F S256x4096 .bf16) (sQ : Vec F S256x1024 .bf16) (sM sL : Vec F S1024x1 .f32) (sA : Vec F S1024x256 .f32)
include hc1 hc2 hc3

set_option maxHeartbeats 4000000 in
noncomputable def runE : Run c i arg3 harg3 arg4 harg4 arg5 harg5 arg6 harg6 arg7 harg7 arg8 harg8 arg9 harg9 arg10 harg10 arg11 harg11 arg12 harg12 arg13 harg13 arg14 harg14 x0 x1 x2 x3 x4 sK sV sQ sM sL sA
    (fun xi5 => xi5)
    sK
    sV
    sQ
    (stepM sQ (tile i sK) sM)
    (stepL sQ (tile i sK) sM sL)
    (stepA sQ (tile i sK) (tile i sV) sM sA) := by
  refine ⟨?_, ?_, ?_, ?_, ?_, ?_, ?_, fun xi5 E K => ?run, fun xi5 => ?h5, ?hK, ?hV, ?hQ, ?hM, ?hL, ?hA⟩
  case run =>
    unfold raw
    simp only [cc0__flash_attn_kernel_eq_skeleton]; unfold cc0__flash_attn_kernel_skel
    simp only [k0_part1_eq_skeleton]; unfold k0_part1_skel
    iintro ⟨⟨H0, H1, H2, H3, H4, H5, HK, HV, HQ, HM, HL, HA⟩, Hk⟩
    sl_exec (disch := first | exact hc1 | exact hc2 | exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HK]; · iexact HK
    isplitl [HV]; · iexact HV
    isplitl [HQ]; · iexact HQ
    isplitl [HM]; · iexact HM
    isplitl [HL]; · iexact HL
    iexact HA
  case h5 => exact harg8.read_unread _
  case hK => exact harg9.read_unread _
  case hV => exact harg10.read_unread _
  case hQ => exact harg11.read_unread _
  case hM =>
    refine (read_writes_cons_whole (S := S1024x1) arg12.view _ off2_zero _ _ _).trans ?_
    simp only [View.readAt_eq_ld, harg9.read_unread, harg11.read_unread, harg12.read_unread,
      View.ld_unit_zero (S := S256x1024) off2_zero, View.ld_unit_zero (S := S1024x1) off2_zero]
    rfl
  case hL =>
    refine (read_writes_cons_whole (S := S1024x1) arg13.view _ off2_zero _ _ _).trans ?_
    simp only [View.readAt_eq_ld, harg9.read_unread, harg11.read_unread, harg12.read_unread, harg13.read_unread,
      View.ld_unit_zero (S := S256x1024) off2_zero, View.ld_unit_zero (S := S1024x1) off2_zero]
    rfl
  case hA =>
    refine (read_writes_cons_whole (S := S1024x256) arg14.view _ off2_zero _ _ _).trans ?_
    sl_unfold_run_names
    simp only [View.readAt_eq_ld, harg9.read_unread, harg10.read_unread, harg11.read_unread, harg12.read_unread, harg14.read_unread,
      View.ld_unit_zero (S := S256x1024) off2_zero, View.ld_unit_zero (S := S1024x1) off2_zero, View.ld_unit_zero (S := S1024x256) off2_zero]
    rfl

end Cert.KernelIdeal.Body

end
-- ==== Proof.IdealFrame.RunG.lean ====
import proofs.«406710_j33887291965459_3_alg».proof.Proof.IdealFrame.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (i : grid0.Coords) (arg3 : Memref sig .tc .vmem S1x256x4096 .f32) (harg3 : arg3.IsWhole) (arg4 : Memref sig .tc .vmem S768x256 .f32) (harg4 : arg4.IsWhole) (arg5 : Memref sig .tc .vmem S768x1 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x1024 .f32) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole) (hc1 : ¬condKV i) (hc2 : ¬condQ i) (hc3 : condO i) (x0 : Vec F S1x256x4096 .f32) (x1 : Vec F S768x256 .f32) (x2 : Vec F S768x1 .f32) (x3 : Vec F S256x256 .f32) (x4 : Vec F S256x1 .f32) (sK sV : Vec F S256x4096 .bf16) (sQ : Vec F S256x1024 .bf16) (sM sL : Vec F S1024x1 .f32) (sA : Vec F S1024x256 .f32)
include hc1 hc2 hc3

set_option maxHeartbeats 4000000 in
noncomputable def runG : Run c i arg3 harg3 arg4 harg4 arg5 harg5 arg6 harg6 arg7 harg7 arg8 harg8 arg9 harg9 arg10 harg10 arg11 harg11 arg12 harg12 arg13 harg13 arg14 harg14 x0 x1 x2 x3 x4 sK sV sQ sM sL sA
    (fun _ => outB (stepA sQ (tile i sK) (tile i sV) sM sA) (stepL sQ (tile i sK) sM sL) x3 x4 (xOt i hc3 x0))
    sK
    sV
    sQ
    (stepM sQ (tile i sK) sM)
    (stepL sQ (tile i sK) sM sL)
    (stepA sQ (tile i sK) (tile i sV) sM sA) := by
  refine ⟨?_, ?_, ?_, ?_, ?_, ?_, ?_, fun xi5 E K => ?run, fun xi5 => ?h5, ?hK, ?hV, ?hQ, ?hM, ?hL, ?hA⟩
  case run =>
    unfold raw
    simp only [cc0__flash_attn_kernel_eq_skeleton]; unfold cc0__flash_attn_kernel_skel
    simp only [k0_part1_eq_skeleton]; unfold k0_part1_skel
    iintro ⟨⟨H0, H1, H2, H3, H4, H5, HK, HV, HQ, HM, HL, HA⟩, Hk⟩
    sl_exec (disch := first | exact hc1 | exact hc2 | exact hc3)
    sl_step
    iapply Hk
    isplitl [H0]; · iexact H0
    isplitl [H1]; · iexact H1
    isplitl [H2]; · iexact H2
    isplitl [H3]; · iexact H3
    isplitl [H4]; · iexact H4
    isplitl [H5]; · iexact H5
    isplitl [HK]; · iexact HK
    isplitl [HV]; · iexact HV
    isplitl [HQ]; · iexact HQ
    isplitl [HM]; · iexact HM
    isplitl [HL]; · iexact HL
    iexact HA
  case h5 =>
    refine (read_writes_cons_whole (S := S1x256x1024) arg8.view _ off3_zero _ _ _).trans ?_
    sl_unfold_run_names
    simp only [View.readCov_unit_zero (S := S1024x1) _ off2_zero, View.readCov_unit_zero (S := S1024x256) _ off2_zero,
      View.readAt_eq_ld, harg3.read_unread, harg6.read_unread, harg7.read_unread, harg9.read_unread, harg10.read_unread,
      harg11.read_unread, harg12.read_unread, harg13.read_unread, harg14.read_unread,
      View.ld_unit_zero (S := S256x1024) off2_zero, View.ld_unit_zero (S := S1024x1) off2_zero, View.ld_unit_zero (S := S1024x256) off2_zero, View.ld_unit_zero (S := S256x256) off2_zero, View.ld_unit_zero (S := S256x1) off2_zero]
    rfl
  case hK => exact harg9.read_unread _
  case hV => exact harg10.read_unread _
  case hQ => exact harg11.read_unread _
  case hM =>
    refine (read_writes_cons_whole (S := S1024x1) arg12.view _ off2_zero _ _ _).trans ?_
    sl_unfold_run_names
    simp only [View.readAt_eq_ld, harg9.read_unread, harg11.read_unread, harg12.read_unread,
      View.ld_unit_zero (S := S256x1024) off2_zero, View.ld_unit_zero (S := S1024x1) off2_zero]
    rfl
  case hL =>
    refine (read_writes_cons_whole (S := S1024x1) arg13.view _ off2_zero _ _ _).trans ?_
    sl_unfold_run_names
    simp only [View.readAt_eq_ld, harg9.read_unread, harg11.read_unread, harg12.read_unread, harg13.read_unread,
      View.ld_unit_zero (S := S256x1024) off2_zero, View.ld_unit_zero (S := S1024x1) off2_zero]
    rfl
  case hA =>
    refine (read_writes_cons_whole (S := S1024x256) arg14.view _ off2_zero _ _ _).trans ?_
    sl_unfold_run_names
    simp only [View.readAt_eq_ld, harg9.read_unread, harg10.read_unread, harg11.read_unread, harg12.read_unread, harg14.read_unread,
      View.ld_unit_zero (S := S256x1024) off2_zero, View.ld_unit_zero (S := S1024x1) off2_zero, View.ld_unit_zero (S := S1024x256) off2_zero]
    rfl

end Cert.KernelIdeal.Body

end
-- ==== Proof.IdealFrame.Step.lean ====
import proofs.«406710_j33887291965459_3_alg».proof.Proof.IdealFrame.RunA
import proofs.«406710_j33887291965459_3_alg».proof.Proof.IdealFrame.RunB
import proofs.«406710_j33887291965459_3_alg».proof.Proof.IdealFrame.RunC
import proofs.«406710_j33887291965459_3_alg».proof.Proof.IdealFrame.RunD
import proofs.«406710_j33887291965459_3_alg».proof.Proof.IdealFrame.RunE
import proofs.«406710_j33887291965459_3_alg».proof.Proof.IdealFrame.RunG

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem not_condQ_condO (i : grid0.Coords) (h2 : condQ i) (h3 : condO i) : False := by
  unfold condQ k0_cond2 at h2; unfold condO k0_cond3 at h3
  dsimp only at h2 h3
  generalize (i 2) = v at h2 h3
  revert v
  decide

theorem spec (c : Dev nD) (i : grid0.Coords) (arg3 : Memref sig .tc .vmem S1x256x4096 .f32) (harg3 : arg3.IsWhole) (arg4 : Memref sig .tc .vmem S768x256 .f32) (harg4 : arg4.IsWhole) (arg5 : Memref sig .tc .vmem S768x1 .f32) (harg5 : arg5.IsWhole) (arg6 : Memref sig .tc .vmem S256x256 .f32) (harg6 : arg6.IsWhole) (arg7 : Memref sig .tc .vmem S256x1 .f32) (harg7 : arg7.IsWhole) (arg8 : Memref sig .tc .vmem S1x256x1024 .f32) (harg8 : arg8.IsWhole) (arg9 : Memref sig .tc .vmem S256x4096 .bf16) (harg9 : arg9.IsWhole) (arg10 : Memref sig .tc .vmem S256x4096 .bf16) (harg10 : arg10.IsWhole) (arg11 : Memref sig .tc .vmem S256x1024 .bf16) (harg11 : arg11.IsWhole) (arg12 : Memref sig .tc .vmem S1024x1 .f32) (harg12 : arg12.IsWhole) (arg13 : Memref sig .tc .vmem S1024x1 .f32) (harg13 : arg13.IsWhole) (arg14 : Memref sig .tc .vmem S1024x256 .f32) (harg14 : arg14.IsWhole)
    (x0 : Vec F S1x256x4096 .f32) (x1 : Vec F S768x256 .f32) (x2 : Vec F S768x1 .f32) (x3 : Vec F S256x256 .f32) (x4 : Vec F S256x1 .f32)
    (sK sV : Vec F S256x4096 .bf16) (sQ : Vec F S256x1024 .bf16) (sM sL : Vec F S1024x1 .f32) (sA : Vec F S1024x256 .f32) (xi5 : Vec F S1x256x1024 .f32) :
    Triple c i arg3 harg3 arg4 harg4 arg5 harg5 arg6 harg6 arg7 harg7 arg8 harg8 arg9 harg9 arg10 harg10 arg11 harg11 arg12 harg12 arg13 harg13 arg14 harg14 x0 x1 x2 x3 x4 sK sV sQ sM sL sA xi5 (nO i x0 x1 x2 x3 x4 xi5 sK sV sQ sM sL sA)
      (nK i x0 x1 x2 sK) (nV i x0 x1 x2 sV) (nQ i x0 x1 x2 sQ) (nM i x0 x1 x2 sK sQ sM) (nL i x0 x1 x2 sK sQ sM sL) (nA i x0 x1 x2 sK sV sQ sM sA) := by
  by_cases hc1 : condKV i <;> by_cases hc2 : condQ i <;> by_cases hc3 : condO i
  · exact absurd hc3 (fun h => not_condQ_condO i hc2 h)
  · simp only [nO, nK, nV, nQ, nM, nL, nA, useK, useV, m0, l0, a0, dif_pos hc1, dif_pos hc2, dif_neg hc3, if_pos hc2]
    exact (runA c i arg3 harg3 arg4 harg4 arg5 harg5 arg6 harg6 arg7 harg7 arg8 harg8 arg9 harg9 arg10 harg10 arg11 harg11 arg12 harg12 arg13 harg13 arg14 harg14 hc1 hc2 hc3 x0 x1 x2 x3 x4 sK sV sQ sM sL sA).spec xi5
  · simp only [nO, nK, nV, nQ, nM, nL, nA, useK, useV, m0, l0, a0, dif_pos hc1, dif_neg hc2, dif_pos hc3, if_neg hc2]
    exact (runC c i arg3 harg3 arg4 harg4 arg5 harg5 arg6 harg6 arg7 harg7 arg8 harg8 arg9 harg9 arg10 harg10 arg11 harg11 arg12 harg12 arg13 harg13 arg14 harg14 hc1 hc2 hc3 x0 x1 x2 x3 x4 sK sV sQ sM sL sA).spec xi5
  · simp only [nO, nK, nV, nQ, nM, nL, nA, useK, useV, m0, l0, a0, dif_pos hc1, dif_neg hc2, dif_neg hc3, if_neg hc2]
    exact (runB c i arg3 harg3 arg4 harg4 arg5 harg5 arg6 harg6 arg7 harg7 arg8 harg8 arg9 harg9 arg10 harg10 arg11 harg11 arg12 harg12 arg13 harg13 arg14 harg14 hc1 hc2 hc3 x0 x1 x2 x3 x4 sK sV sQ sM sL sA).spec xi5
  · exact absurd hc3 (fun h => not_condQ_condO i hc2 h)
  · simp only [nO, nK, nV, nQ, nM, nL, nA, useK, useV, m0, l0, a0, dif_neg hc1, dif_pos hc2, dif_neg hc3, if_pos hc2]
    exact (runD c i arg3 harg3 arg4 harg4 arg5 harg5 arg6 harg6 arg7 harg7 arg8 harg8 arg9 harg9 arg10 harg10 arg11 harg11 arg12 harg12 arg13 harg13 arg14 harg14 hc1 hc2 hc3 x0 x1 x2 x3 x4 sK sV sQ sM sL sA).spec xi5
  · simp only [nO, nK, nV, nQ, nM, nL, nA, useK, useV, m0, l0, a0, dif_neg hc1, dif_neg hc2, dif_pos hc3, if_neg hc2]
    exact (runG c i arg3 harg3 arg4 harg4 arg5 harg5 arg6 harg6 arg7 harg7 arg8 harg8 arg9 harg9 arg10 harg10 arg11 harg11 arg12 harg12 arg13 harg13 arg14 harg14 hc1 hc2 hc3 x0 x1 x2 x3 x4 sK sV sQ sM sL sA).spec xi5
  · simp only [nO, nK, nV, nQ, nM, nL, nA, useK, useV, m0, l0, a0, dif_neg hc1, dif_neg hc2, dif_neg hc3, if_neg hc2]
    exact (runE c i arg3 harg3 arg4 harg4 arg5 harg5 arg6 harg6 arg7 harg7 arg8 harg8 arg9 harg9 arg10 harg10 arg11 harg11 arg12 harg12 arg13 harg13 arg14 harg14 hc1 hc2 hc3 x0 x1 x2 x3 x4 sK sV sQ sM sL sA).spec xi5

end Cert.KernelIdeal.Body

end
-- ==== Proof.IdealFrame.Track.lean ====
import proofs.«406710_j33887291965459_3_alg».proof.Proof.IdealFrame.Steps

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

structure St (F : FTy → Type) where
  K : Vec F S256x4096 .bf16
  V : Vec F S256x4096 .bf16
  Q : Vec F S256x1024 .bf16
  M : Vec F S1024x1 .f32
  L : Vec F S1024x1 .f32
  A : Vec F S1024x256 .f32

def stNext (i : grid0.Coords) (x0 : Vec F S1x256x4096 .f32) (x1 : Vec F S768x256 .f32) (x2 : Vec F S768x1 .f32) (s : St F) : St F where
  K := nK i x0 x1 x2 s.K
  V := nV i x0 x1 x2 s.V
  Q := nQ i x0 x1 x2 s.Q
  M := nM i x0 x1 x2 s.K s.Q s.M
  L := nL i x0 x1 x2 s.K s.Q s.M s.L
  A := nA i x0 x1 x2 s.K s.V s.Q s.M s.A

theorem tile_inb (k : Fin 4) : ∀ a, (![0, 1024 * k.val] : Fin 2 → Nat) a + S256x1024.size a ≤ S256x4096.size a := by
  have := k.isLt
  intro a; fin_cases a
  · show 0 + 256 ≤ 256; exact Nat.le_refl _
  · show 1024 * k.val + 1024 ≤ 4096; omega

theorem ld_off_congr {S : Shape} {e : EltTy} {Val : EltTy → Type} {off off' size : Fin S.rank → Nat} (h : off = off')
    (p : ∀ a, off a + size a ≤ S.size a) (p' : ∀ a, off' a + size a ≤ S.size a) (s : S.Idx → Val e) :
    View.ld s (Rect.unit (s := S) off size p) = View.ld s (Rect.unit (s := S) off' size p') := by
  subst h; rfl
theorem overlay_at_emb {S : Shape} {α : Type} {off off' size : Fin S.rank → Nat} (h : off = off')
    (p : ∀ a, off a + size a ≤ S.size a) (p' : ∀ a, off' a + size a ≤ S.size a) (s : S.Idx → α)
    (w : (Rect.unit (s := S) off size p).shape.Idx → α) (x : (Rect.unit (s := S) off' size p').shape.Idx) :
    (Rect.unit (s := S) off size p).overlay s w ((Rect.unit (s := S) off' size p').emb x) = w x := by
  subst h; exact Rect.overlay_emb _ s w x
theorem overlay_at_not_mem {S : Shape} {α : Type} {off off' size : Fin S.rank → Nat} (h : off = off')
    (p : ∀ a, off a + size a ≤ S.size a) (p' : ∀ a, off' a + size a ≤ S.size a) (s : S.Idx → α)
    (w : (Rect.unit (s := S) off size p).shape.Idx → α) (y : S.Idx) (hy : y ∉ (Rect.unit (s := S) off' size p').set) :
    (Rect.unit (s := S) off size p).overlay s w y = s y := by
  subst h; exact Rect.overlay_of_not_mem _ s w hy

def tileAt (k : Fin 4) (s : Vec F S256x4096 .bf16) : Vec F S256x1024 .bf16 :=
  View.ld s (Rect.unit (s := S256x4096) ![0, 1024 * k.val] S256x1024.size (tile_inb k))

abbrev kiOf (t : Fin cfg0.N) : Fin 4 := ⟨t.val % 4, Nat.mod_lt _ (by decide)⟩

theorem off4_eq : ∀ t : Fin cfg0.N, k0_off4 (grid0.coords t) = ![0, 1024 * (t.val % 4)] :=
  (by decide +kernel : ∀ t : Fin grid0.N, k0_off4 (grid0.coords t) = ![0, 1024 * (t.val % 4)])
theorem off2_eq : ∀ t : Fin cfg0.N, k0_off2 (grid0.coords t) = ![0, 1024 * (t.val % 4)] :=
  (by decide +kernel : ∀ t : Fin grid0.N, k0_off2 (grid0.coords t) = ![0, 1024 * (t.val % 4)])

theorem tile_eq_tileAt (t : Fin cfg0.N) (s : Vec F S256x4096 .bf16) : tile (grid0.coords t) s = tileAt (kiOf t) s := by
  unfold tile tileAt
  exact ld_off_congr (off4_eq t) _ _ s

theorem tileAt_putTile_self (t : Fin cfg0.N) (h : condKV (grid0.coords t)) (s : Vec F S256x4096 .bf16) (w : FVec F S256x1024 .bf16) :
    tileAt (kiOf t) (putTile (grid0.coords t) h s w) = w := by
  unfold tileAt putTile
  funext x
  exact overlay_at_emb (off2_eq t) (k0_off2_inb (grid0.coords t) h) (tile_inb (kiOf t)) s w x

theorem tileAt_putTile_of_ne (t : Fin cfg0.N) (h : condKV (grid0.coords t)) (k : Fin 4) (hk : k.val ≠ t.val % 4)
    (s : Vec F S256x4096 .bf16) (w : FVec F S256x1024 .bf16) :
    tileAt k (putTile (grid0.coords t) h s w) = tileAt k s := by
  unfold tileAt putTile
  funext x
  refine overlay_at_not_mem (off2_eq t) (k0_off2_inb (grid0.coords t) h) (tile_inb (kiOf t)) s w _ ?_
  intro hmem
  have hall := Rect.mem_set_unit.mp hmem
  have h1 := hall (1 : Fin 2)
  have e : (((Rect.unit (s := S256x4096) ![0, 1024 * k.val] S256x1024.size (tile_inb k)).idx x (1 : Fin 2) : Fin _) : Nat)
      = 1024 * k.val + 1 * (x (1 : Fin 2)).val := rfl
  have hx : (x (1 : Fin 2)).val < 1024 := (x (1 : Fin 2)).isLt
  have hk4 := k.isLt
  have ht4 : t.val % 4 < 4 := Nat.mod_lt _ (by decide)
  rw [e] at h1
  have h1' : 1024 * (t.val % 4) ≤ 1024 * k.val + 1 * (x (1 : Fin 2)).val ∧ 1024 * k.val + 1 * (x (1 : Fin 2)).val < 1024 * (t.val % 4) + 1024 := h1
  omega

def Rel (n : ℕ) (a s : St F) : Prop :=
  (0 < n → a.Q = s.Q ∧ a.M = s.M ∧ a.L = s.L ∧ a.A = s.A)
  ∧ ∀ k : Fin 4, k.val < n → tileAt k a.K = tileAt k s.K ∧ tileAt k a.V = tileAt k s.V

theorem Rel_zero (a s : St F) : Rel 0 a s := ⟨fun h => absurd h (Nat.lt_irrefl 0), fun _ h => absurd h (Nat.not_lt_zero _)⟩

section Keep
variable (t : Fin cfg0.N) (x0 : Vec F S1x256x4096 .f32) (x1 : Vec F S768x256 .f32) (x2 : Vec F S768x1 .f32) (a s : St F)
  (hR : Rel t.val a s)

include hR

theorem four_le_of_not_condKV (h : ¬condKV (grid0.coords t)) : 4 ≤ t.val := by
  have := (hcondKV t).not.mp h
  omega

theorem pos_of_not_condQ (h : ¬condQ (grid0.coords t)) : 0 < t.val := by
  have := (hcondQ t).not.mp h
  omega

theorem useK_congr : useK (grid0.coords t) x0 x1 x2 a.K = useK (grid0.coords t) x0 x1 x2 s.K := by
  unfold useK
  by_cases h : condKV (grid0.coords t)
  · rw [dif_pos h, dif_pos h]
  · rw [dif_neg h, dif_neg h, tile_eq_tileAt, tile_eq_tileAt]
    have h4 := four_le_of_not_condKV t a s hR h
    exact (hR.2 (kiOf t) (by show t.val % 4 < t.val; omega)).1
theorem useV_congr : useV (grid0.coords t) x0 x1 x2 a.V = useV (grid0.coords t) x0 x1 x2 s.V := by
  unfold useV
  by_cases h : condKV (grid0.coords t)
  · rw [dif_pos h, dif_pos h]
  · rw [dif_neg h, dif_neg h, tile_eq_tileAt, tile_eq_tileAt]
    have h4 := four_le_of_not_condKV t a s hR h
    exact (hR.2 (kiOf t) (by show t.val % 4 < t.val; omega)).2

theorem nQ_congr : nQ (grid0.coords t) x0 x1 x2 a.Q = nQ (grid0.coords t) x0 x1 x2 s.Q := by
  unfold nQ
  by_cases h : condQ (grid0.coords t)
  · rw [dif_pos h, dif_pos h]
  · rw [dif_neg h, dif_neg h]; exact (hR.1 (pos_of_not_condQ t a s hR h)).1
theorem m0_congr : m0 (grid0.coords t) a.M = m0 (grid0.coords t) s.M := by
  unfold m0
  by_cases h : condQ (grid0.coords t)
  · rw [if_pos h, if_pos h]
  · rw [if_neg h, if_neg h]; exact (hR.1 (pos_of_not_condQ t a s hR h)).2.1
theorem l0_congr : l0 (grid0.coords t) a.L = l0 (grid0.coords t) s.L := by
  unfold l0
  by_cases h : condQ (grid0.coords t)
  · rw [if_pos h, if_pos h]
  · rw [if_neg h, if_neg h]; exact (hR.1 (pos_of_not_condQ t a s hR h)).2.2.1
theorem a0_congr : a0 (grid0.coords t) a.A = a0 (grid0.coords t) s.A := by
  unfold a0
  by_cases h : condQ (grid0.coords t)
  · rw [if_pos h, if_pos h]
  · rw [if_neg h, if_neg h]; exact (hR.1 (pos_of_not_condQ t a s hR h)).2.2.2

theorem nM_congr : nM (grid0.coords t) x0 x1 x2 a.K a.Q a.M = nM (grid0.coords t) x0 x1 x2 s.K s.Q s.M := by
  unfold nM; rw [nQ_congr t x0 x1 x2 a s hR, useK_congr t x0 x1 x2 a s hR, m0_congr t a s hR]
theorem nL_congr : nL (grid0.coords t) x0 x1 x2 a.K a.Q a.M a.L = nL (grid0.coords t) x0 x1 x2 s.K s.Q s.M s.L := by
  unfold nL; rw [nQ_congr t x0 x1 x2 a s hR, useK_congr t x0 x1 x2 a s hR, m0_congr t a s hR, l0_congr t a s hR]
theorem nA_congr : nA (grid0.coords t) x0 x1 x2 a.K a.V a.Q a.M a.A = nA (grid0.coords t) x0 x1 x2 s.K s.V s.Q s.M s.A := by
  unfold nA; rw [nQ_congr t x0 x1 x2 a s hR, useK_congr t x0 x1 x2 a s hR, useV_congr t x0 x1 x2 a s hR, m0_congr t a s hR, a0_congr t a s hR]

theorem nO_congr (x3 : Vec F S256x256 .f32) (x4 : Vec F S256x1 .f32) (xi xi' : Vec F S1x256x1024 .f32) (h : condO (grid0.coords t)) :
    nO (grid0.coords t) x0 x1 x2 x3 x4 xi a.K a.V a.Q a.M a.L a.A = nO (grid0.coords t) x0 x1 x2 x3 x4 xi' s.K s.V s.Q s.M s.L s.A := by
  unfold nO; rw [dif_pos h, dif_pos h, nA_congr t x0 x1 x2 a s hR, nL_congr t x0 x1 x2 a s hR]

theorem nK_tile (k : Fin 4) (hk : k.val < t.val + 1) :
    tileAt k (nK (grid0.coords t) x0 x1 x2 a.K) = tileAt k (nK (grid0.coords t) x0 x1 x2 s.K) := by
  unfold nK
  by_cases h : condKV (grid0.coords t)
  · rw [dif_pos h, dif_pos h]
    by_cases hkt : k.val = t.val % 4
    · have e : k = kiOf t := Fin.ext hkt
      rw [e, tileAt_putTile_self, tileAt_putTile_self]
    · rw [tileAt_putTile_of_ne t h k hkt, tileAt_putTile_of_ne t h k hkt]
      have hk4 := k.isLt
      exact (hR.2 k (by omega)).1
  · rw [dif_neg h, dif_neg h]
    have h4 := four_le_of_not_condKV t a s hR h
    have hk4 := k.isLt
    exact (hR.2 k (by omega)).1
theorem nV_tile (k : Fin 4) (hk : k.val < t.val + 1) :
    tileAt k (nV (grid0.coords t) x0 x1 x2 a.V) = tileAt k (nV (grid0.coords t) x0 x1 x2 s.V) := by
  unfold nV
  by_cases h : condKV (grid0.coords t)
  · rw [dif_pos h, dif_pos h]
    by_cases hkt : k.val = t.val % 4
    · have e : k = kiOf t := Fin.ext hkt
      rw [e, tileAt_putTile_self, tileAt_putTile_self]
    · rw [tileAt_putTile_of_ne t h k hkt, tileAt_putTile_of_ne t h k hkt]
      have hk4 := k.isLt
      exact (hR.2 k (by omega)).2
  · rw [dif_neg h, dif_neg h]
    have h4 := four_le_of_not_condKV t a s hR h
    have hk4 := k.isLt
    exact (hR.2 k (by omega)).2

theorem Rel_next : Rel (t.val + 1) (stNext (grid0.coords t) x0 x1 x2 a) (stNext (grid0.coords t) x0 x1 x2 s) :=
  ⟨fun _ => ⟨nQ_congr t x0 x1 x2 a s hR, nM_congr t x0 x1 x2 a s hR, nL_congr t x0 x1 x2 a s hR, nA_congr t x0 x1 x2 a s hR⟩,
   fun k hk => ⟨nK_tile t x0 x1 x2 a s hR k hk, nV_tile t x0 x1 x2 a s hR k hk⟩⟩

end Keep

end Cert.KernelIdeal.Body

end
-- ==== Proof.IdealFrame.Frame.lean ====
import proofs.«406710_j33887291965459_3_alg».proof.Proof.IdealFrame.Step
import proofs.«406710_j33887291965459_3_alg».proof.Proof.IdealFrame.Track

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev B0 (c : Dev nD) (t : Fin cfg0.N) : Vec F S1x256x4096 .f32 := iblk m c 0 t
abbrev B1 (c : Dev nD) (t : Fin cfg0.N) : Vec F S768x256 .f32 := iblk m c 1 t
abbrev B2 (c : Dev nD) (t : Fin cfg0.N) : Vec F S768x1 .f32 := iblk m c 2 t
abbrev B3 (c : Dev nD) (t : Fin cfg0.N) : Vec F S256x256 .f32 := iblk m c 3 t
abbrev B4 (c : Dev nD) (t : Fin cfg0.N) : Vec F S256x1 .f32 := iblk m c 4 t

def st0 : St F where
  K := fun _ => Classical.choice (Elt.nonempty F _)
  V := fun _ => Classical.choice (Elt.nonempty F _)
  Q := fun _ => Classical.choice (Elt.nonempty F _)
  M := fun _ => Classical.choice (Elt.nonempty F _)
  L := fun _ => Classical.choice (Elt.nonempty F _)
  A := fun _ => Classical.choice (Elt.nonempty F _)

def stAt (c : Dev nD) : (n : ℕ) → n ≤ cfg0.N → St F
  | 0, _ => st0
  | n + 1, h => stNext (grid0.coords ⟨n, h⟩) (B0 m c ⟨n, h⟩) (B1 m c ⟨n, h⟩) (B2 m c ⟨n, h⟩) (stAt c n (Nat.le_of_succ_le h))

theorem stAt_succ (c : Dev nD) (t : Fin cfg0.N) :
    stAt m c (t.val + 1) t.isLt = stNext (grid0.coords t) (B0 m c t) (B1 m c t) (B2 m c t) (stAt m c t.val (Nat.le_of_lt t.isLt)) := rfl

def outAt (c : Dev nD) (t : Fin cfg0.N) : Vec F S1x256x1024 .f32 :=
  nO (grid0.coords t) (B0 m c t) (B1 m c t) (B2 m c t) (B3 m c t) (B4 m c t) (fun _ => Classical.choice (Elt.nonempty F _))
    (stAt m c t.val (Nat.le_of_lt t.isLt)).K (stAt m c t.val (Nat.le_of_lt t.isLt)).V (stAt m c t.val (Nat.le_of_lt t.isLt)).Q
    (stAt m c t.val (Nat.le_of_lt t.isLt)).M (stAt m c t.val (Nat.le_of_lt t.isLt)).L (stAt m c t.val (Nat.le_of_lt t.isLt)).A

def PhiS (c : Dev nD) (n : ℕ) (h : n ≤ cfg0.N) : sProp 𝕄 :=
  iprop((∃ a : St F, ⌜Rel n a (stAt m c n h)⌝ ∗ owns (c : Thread nD τ) scK fullShare a.K ∗ owns (c : Thread nD τ) scV fullShare a.V
      ∗ owns (c : Thread nD τ) scQ fullShare a.Q ∗ owns (c : Thread nD τ) scM fullShare a.M
      ∗ owns (c : Thread nD τ) scL fullShare a.L ∗ owns (c : Thread nD τ) scA fullShare a.A) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = outAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d

theorem live0 : ∀ t : Fin cfg0.N, cfg0.idle 0 (grid0.coords t) = false := fun _ => rfl
theorem live1 : ∀ t : Fin cfg0.N, cfg0.idle 1 (grid0.coords t) = false := fun _ => rfl
theorem live2 : ∀ t : Fin cfg0.N, cfg0.idle 2 (grid0.coords t) = false := fun _ => rfl
theorem live3 : ∀ t : Fin cfg0.N, cfg0.idle 3 (grid0.coords t) = false := fun _ => rfl
theorem live4 : ∀ t : Fin cfg0.N, cfg0.idle 4 (grid0.coords t) = false := fun _ => rfl
theorem live5 : ∀ t : Fin cfg0.N, condO (grid0.coords t) → cfg0.idle 5 (grid0.coords t) = false := by decide +kernel
theorem idle5 : ∀ t : Fin cfg0.N, ¬condO (grid0.coords t) → cfg0.idle 5 (grid0.coords t) = true := by decide +kernel
theorem noFlush5 : ∀ t : Fin cfg0.N, ¬condO (grid0.coords t) → (cfg0.win 5).flush t = false := by decide +kernel

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4]
  rw [show (dats m 0 c).owesAt () t.succ = (dats m 0 c).owesAt () t.castSucc from rfl]
  rw [show (dats m 0 c).Φ t.succ = PhiS m c (t.val + 1) t.isLt from rfl, Phi_castSucc]
  rw [show (dats m 0 c).leavesExact 0 t = owns (c : Thread nD τ) (ms0 t) fullShare ((dats m 0 c).after 0 t) from by
    unfold Dat.leavesExact; rw [live0 t], after0]
  rw [show (dats m 0 c).leavesExact 1 t = owns (c : Thread nD τ) (ms1 t) fullShare ((dats m 0 c).after 1 t) from by
    unfold Dat.leavesExact; rw [live1 t], after1]
  rw [show (dats m 0 c).leavesExact 2 t = owns (c : Thread nD τ) (ms2 t) fullShare ((dats m 0 c).after 2 t) from by
    unfold Dat.leavesExact; rw [live2 t], after2]
  rw [show (dats m 0 c).leavesExact 3 t = owns (c : Thread nD τ) (ms3 t) fullShare ((dats m 0 c).after 3 t) from by
    unfold Dat.leavesExact; rw [live3 t], after3]
  rw [show (dats m 0 c).leavesExact 4 t = owns (c : Thread nD τ) (ms4 t) fullShare ((dats m 0 c).after 4 t) from by
    unfold Dat.leavesExact; rw [live4 t], after4]
  unfold PhiS
  iintro ⟨⟨⟨%a, %hR, HK, HV, HQ, HM, HL, HA⟩, Hg⟩, Ho, ⟨%d0, H0⟩, ⟨%d1, H1⟩, ⟨%d2, H2⟩, ⟨%d3, H3⟩, ⟨%d4, H4⟩, ⟨%d5, H5⟩⟩
  iapply (spec c (grid0.coords t) (ms0 t) (hs0 t) (ms1 t) (hs1 t) (ms2 t) (hs2 t) (ms3 t) (hs3 t) (ms4 t) (hs4 t) (ms5 t) (hs5 t)
    scK (Memref.isWhole_whole _) scV (Memref.isWhole_whole _) scQ (Memref.isWhole_whole _) scM (Memref.isWhole_whole _)
    scL (Memref.isWhole_whole _) scA (Memref.isWhole_whole _)
    (B0 m c t) (B1 m c t) (B2 m c t) (B3 m c t) (B4 m c t) a.K a.V a.Q a.M a.L a.A ((dats m 0 c).before 5 t d5) Set.univ _)
  unfold owned
  isplitl [H0 H1 H2 H3 H4 H5 HK HV HQ HM HL HA]; · iframe
  iintro ⟨H0, H1, H2, H3, H4, H5, HK, HV, HQ, HM, HL, HA⟩
  isplitl [HK HV HQ HM HL HA Hg]
  · isplitl [HK HV HQ HM HL HA]
    · iexists (stNext (grid0.coords t) (B0 m c t) (B1 m c t) (B2 m c t) a)
      isplitr
      · ipureintro; rw [stAt_succ]; exact Rel_next t (B0 m c t) (B1 m c t) (B2 m c t) a _ hR
      isplitl [HK]; · iexact HK
      isplitl [HV]; · iexact HV
      isplitl [HQ]; · iexact HQ
      isplitl [HM]; · iexact HM
      isplitl [HL]; · iexact HL
      iexact HA
    iexact Hg
  iframe Ho H0 H1 H2 H3 H4
  by_cases hO : condO (grid0.coords t)
  · rw [show (dats m 0 c).leavesExact 5 t = owns (c : Thread nD τ) (ms5 t) fullShare ((dats m 0 c).after 5 t) from by
      unfold Dat.leavesExact; rw [live5 t hO], after5,
      show outAt m c t = nO (grid0.coords t) (B0 m c t) (B1 m c t) (B2 m c t) (B3 m c t) (B4 m c t) ((dats m 0 c).before 5 t d5) a.K a.V a.Q a.M a.L a.A from
        (nO_congr t (B0 m c t) (B1 m c t) (B2 m c t) a _ hR (B3 m c t) (B4 m c t) _ _ hO).symm]
    iexact H5
  · rw [Dat.leavesExact_idle (dats m 0 c) 5 t (idle5 t hO) (noFlush5 t hO)]
    iexists d5
    rw [show nO (grid0.coords t) (B0 m c t) (B1 m c t) (B2 m c t) (B3 m c t) (B4 m c t) ((dats m 0 c).before 5 t d5) a.K a.V a.Q a.M a.L a.A
        = (dats m 0 c).before 5 t d5 from by unfold nO; rw [dif_neg hO]]
    iexact H5

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiA_eq]
  unfold PhiS
  iintro ⟨⟨⟨%dK, HK⟩, ⟨%dV, HV⟩, ⟨%dQ, HQ⟩, ⟨%dM, HM⟩, ⟨%dL, HL⟩, ⟨%dA, HA⟩⟩, Hg⟩
  isplitl [HK HV HQ HM HL HA]
  · iexists (⟨dK, dV, dQ, dM, dL, dA⟩ : St F)
    isplitr; · ipureintro; exact Rel_zero _ _
    iframe
  iexact Hg

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA_eq]
  unfold PhiS
  iintro ⟨⟨%a, -, HK, HV, HQ, HM, HL, HA⟩, Hg⟩
  isplitl [HK HV HQ HM HL HA]
  · isplitl [HK]; · iexists _; iexact HK
    isplitl [HV]; · iexists _; iexact HV
    isplitl [HQ]; · iexists _; iexact HQ
    isplitl [HM]; · iexists _; iexact HM
    isplitl [HL]; · iexists _; iexact HL
    iexists _; iexact HA
  iexact Hg

set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

end Cert.KernelIdeal.Body

end
-- ==== Proof.RefImports.lean ====
import proofs.«406710_j33887291965459_3_alg».proof.Proof.Gen.ReferenceIdeal.Run
import proofs.«406710_j33887291965459_3_alg».proof.Proof.Gen.ReferenceIdeal.Read
-- ==== Proof.IdealFrame.Closed.lean ====
import proofs.«406710_j33887291965459_3_alg».proof.Proof.IdealFrame.Frame

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

def kvK (c : Dev nD) (p : Fin cfg0.N) (hp : condKV (grid0.coords p)) : FVec F S256x1024 .bf16 :=
  newK (grid0.coords p) hp (B0 m c p) (B1 m c p) (B2 m c p)
def kvV (c : Dev nD) (p : Fin cfg0.N) (hp : condKV (grid0.coords p)) : FVec F S256x1024 .bf16 :=
  newV (grid0.coords p) hp (B0 m c p) (B1 m c p) (B2 m c p)
def rowQ (c : Dev nD) (p : Fin cfg0.N) (hp : condQ (grid0.coords p)) : FVec F S256x1024 .bf16 :=
  newQ (grid0.coords p) hp (B0 m c p) (B1 m c p) (B2 m c p)

theorem kv_tiles_apart (p n : ℕ) (hp : (p / 4) % 4 = 0) (hn : (n / 4) % 4 = 0) (h1 : p < n) (h2 : n ≤ p + 15) : p % 4 ≠ n % 4 := by
  omega

theorem cacheK (c : Dev nD) : ∀ (n : ℕ) (hn : n ≤ cfg0.N) (p : Fin cfg0.N) (hp : condKV (grid0.coords p)), p.val < n → n ≤ p.val + 16 →
    tileAt (kiOf p) (stAt m c n hn).K = kvK m c p hp
  | 0, _, _, _, h, _ => absurd h (Nat.not_lt_zero _)
  | n + 1, hn, p, hp, h1, h2 => by
    show tileAt (kiOf p) (nK (grid0.coords ⟨n, hn⟩) (B0 m c ⟨n, hn⟩) (B1 m c ⟨n, hn⟩) (B2 m c ⟨n, hn⟩) (stAt m c n (Nat.le_of_succ_le hn)).K) = _
    unfold nK
    by_cases hpn : p.val = n
    · have e : p = ⟨n, hn⟩ := Fin.ext hpn
      subst e
      rw [dif_pos hp, tileAt_putTile_self]; rfl
    · have hlt : p.val < n := by omega
      have ih := cacheK c n (Nat.le_of_succ_le hn) p hp hlt (by omega)
      by_cases hc : condKV (grid0.coords ⟨n, hn⟩)
      · rw [dif_pos hc]
        have a1 := (hcondKV p).mp hp
        have a2 := (hcondKV ⟨n, hn⟩).mp hc
        rw [tileAt_putTile_of_ne ⟨n, hn⟩ hc (kiOf p) (kv_tiles_apart p.val n a1 a2 hlt (by omega))]
        exact ih
      · rw [dif_neg hc]; exact ih
theorem cacheV (c : Dev nD) : ∀ (n : ℕ) (hn : n ≤ cfg0.N) (p : Fin cfg0.N) (hp : condKV (grid0.coords p)), p.val < n → n ≤ p.val + 16 →
    tileAt (kiOf p) (stAt m c n hn).V = kvV m c p hp
  | 0, _, _, _, h, _ => absurd h (Nat.not_lt_zero _)
  | n + 1, hn, p, hp, h1, h2 => by
    show tileAt (kiOf p) (nV (grid0.coords ⟨n, hn⟩) (B0 m c ⟨n, hn⟩) (B1 m c ⟨n, hn⟩) (B2 m c ⟨n, hn⟩) (stAt m c n (Nat.le_of_succ_le hn)).V) = _
    unfold nV
    by_cases hpn : p.val = n
    · have e : p = ⟨n, hn⟩ := Fin.ext hpn
      subst e
      rw [dif_pos hp, tileAt_putTile_self]; rfl
    · have hlt : p.val < n := by omega
      have ih := cacheV c n (Nat.le_of_succ_le hn) p hp hlt (by omega)
      by_cases hc : condKV (grid0.coords ⟨n, hn⟩)
      · rw [dif_pos hc]
        have a1 := (hcondKV p).mp hp
        have a2 := (hcondKV ⟨n, hn⟩).mp hc
        rw [tileAt_putTile_of_ne ⟨n, hn⟩ hc (kiOf p) (kv_tiles_apart p.val n a1 a2 hlt (by omega))]
        exact ih
      · rw [dif_neg hc]; exact ih

theorem specQ (c : Dev nD) (p : Fin cfg0.N) (hp : condQ (grid0.coords p)) : ∀ (n : ℕ) (hn : n < cfg0.N), p.val ≤ n → n < p.val + 4 →
    (stAt m c (n + 1) hn).Q = rowQ m c p hp
  | n, hn, h1, h2 => by
    show nQ (grid0.coords ⟨n, hn⟩) (B0 m c ⟨n, hn⟩) (B1 m c ⟨n, hn⟩) (B2 m c ⟨n, hn⟩) (stAt m c n (Nat.le_of_lt hn)).Q = _
    unfold nQ
    by_cases hpn : p.val = n
    · have e : p = ⟨n, hn⟩ := Fin.ext hpn
      subst e
      rw [dif_pos hp]; rfl
    · have a1 := (hcondQ p).mp hp
      have hc : ¬condQ (grid0.coords ⟨n, hn⟩) := fun h => by
        have a2 := (hcondQ ⟨n, hn⟩).mp h
        have : (⟨n, hn⟩ : Fin cfg0.N).val = n := rfl
        omega
      rw [dif_neg hc]
      obtain ⟨k, rfl⟩ : ∃ k, n = k + 1 := ⟨n - 1, by omega⟩
      exact specQ c p hp k (Nat.lt_of_succ_lt hn) (by omega) (by omega)

def kvPt (t : Fin cfg0.N) : Fin cfg0.N := ⟨16 * (t.val / 16) + t.val % 4, by have := t.isLt; have : cfg0.N = 64 := N_0; omega⟩
theorem kvPt_cond (t : Fin cfg0.N) : condKV (grid0.coords (kvPt t)) :=
  (hcondKV (kvPt t)).mpr (by show ((16 * (t.val / 16) + t.val % 4) / 4) % 4 = 0; omega)

theorem useK_spec (c : Dev nD) (t : Fin cfg0.N) :
    useK (grid0.coords t) (B0 m c t) (B1 m c t) (B2 m c t) (stAt m c t.val (Nat.le_of_lt t.isLt)).K = kvK m c (kvPt t) (kvPt_cond t) := by
  unfold useK
  by_cases h : condKV (grid0.coords t)
  · rw [dif_pos h]
    have a := (hcondKV t).mp h
    have e : kvPt t = t := Fin.ext (by show 16 * (t.val / 16) + t.val % 4 = t.val; omega)
    have : ∀ (q : Fin cfg0.N) (hq : condKV (grid0.coords q)), q = t → kvK m c q hq = newK (grid0.coords t) h (B0 m c t) (B1 m c t) (B2 m c t) := by
      intro q hq e'; subst e'; rfl
    exact (this (kvPt t) (kvPt_cond t) e).symm
  · rw [dif_neg h, tile_eq_tileAt]
    have a := (hcondKV t).not.mp h
    have hk : kiOf t = kiOf (kvPt t) := Fin.ext (by show t.val % 4 = (16 * (t.val / 16) + t.val % 4) % 4; omega)
    rw [hk]
    exact cacheK m c t.val (Nat.le_of_lt t.isLt) (kvPt t) (kvPt_cond t) (by show 16 * (t.val / 16) + t.val % 4 < t.val; omega)
      (by show t.val ≤ 16 * (t.val / 16) + t.val % 4 + 16; omega)
theorem useV_spec (c : Dev nD) (t : Fin cfg0.N) :
    useV (grid0.coords t) (B0 m c t) (B1 m c t) (B2 m c t) (stAt m c t.val (Nat.le_of_lt t.isLt)).V = kvV m c (kvPt t) (kvPt_cond t) := by
  unfold useV
  by_cases h : condKV (grid0.coords t)
  · rw [dif_pos h]
    have a := (hcondKV t).mp h
    have e : kvPt t = t := Fin.ext (by show 16 * (t.val / 16) + t.val % 4 = t.val; omega)
    have : ∀ (q : Fin cfg0.N) (hq : condKV (grid0.coords q)), q = t → kvV m c q hq = newV (grid0.coords t) h (B0 m c t) (B1 m c t) (B2 m c t) := by
      intro q hq e'; subst e'; rfl
    exact (this (kvPt t) (kvPt_cond t) e).symm
  · rw [dif_neg h, tile_eq_tileAt]
    have a := (hcondKV t).not.mp h
    have hk : kiOf t = kiOf (kvPt t) := Fin.ext (by show t.val % 4 = (16 * (t.val / 16) + t.val % 4) % 4; omega)
    rw [hk]
    exact cacheV m c t.val (Nat.le_of_lt t.isLt) (kvPt t) (kvPt_cond t) (by show 16 * (t.val / 16) + t.val % 4 < t.val; omega)
      (by show t.val ≤ 16 * (t.val / 16) + t.val % 4 + 16; omega)

def rowPt (t : Fin cfg0.N) : Fin cfg0.N := ⟨4 * (t.val / 4), by have := t.isLt; omega⟩
theorem rowPt_cond (t : Fin cfg0.N) : condQ (grid0.coords (rowPt t)) :=
  (hcondQ (rowPt t)).mpr (by show (4 * (t.val / 4)) % 4 = 0; omega)
theorem nQ_spec (c : Dev nD) (t : Fin cfg0.N) :
    nQ (grid0.coords t) (B0 m c t) (B1 m c t) (B2 m c t) (stAt m c t.val (Nat.le_of_lt t.isLt)).Q = rowQ m c (rowPt t) (rowPt_cond t) :=
  specQ m c (rowPt t) (rowPt_cond t) t.val t.isLt (by show 4 * (t.val / 4) ≤ t.val; omega) (by show t.val < 4 * (t.val / 4) + 4; omega)

end Cert.KernelIdeal.Body

end
-- ==== Proof.OnlineSoftmax.lean ====
import Idealize.ShloMosaic.PureOps.Ideal
import Idealize.ShloMosaic.PureOps.Ideal.Laws

noncomputable section

namespace Cert.Attn

open Idealize.ShloMosaic

def osStep {κ : Type} [Fintype κ] (st : EReal × EReal × EReal) (s v : κ → EReal) : EReal × EReal × EReal :=
  (max st.1 (Finset.univ.fold max (⊥ : EReal) s),
   Ideal.exp (st.1 - max st.1 (Finset.univ.fold max (⊥ : EReal) s)) * st.2.1
     + ∑ j, Ideal.exp (s j - max st.1 (Finset.univ.fold max (⊥ : EReal) s)),
   Ideal.exp (st.1 - max st.1 (Finset.univ.fold max (⊥ : EReal) s)) * st.2.2
     + ∑ j, Ideal.exp (s j - max st.1 (Finset.univ.fold max (⊥ : EReal) s)) * v j)

def osRun {κ : Type} [Fintype κ] (s v : ℕ → κ → EReal) : ℕ → EReal × EReal × EReal
  | 0 => (⊥, 0, 0)
  | k + 1 => osStep (osRun s v k) (s k) (v k)

def gmax {κ : Type} [Fintype κ] [Nonempty κ] (T : ℕ) (hT : 0 < T) (s : ℕ → κ → ℝ) : ℝ :=
  (Finset.univ : Finset (Fin T × κ)).sup' (by haveI : Nonempty (Fin T) := ⟨⟨0, hT⟩⟩; exact Finset.univ_nonempty) (fun p => s p.1.val p.2)

theorem coe_sum {ι : Type} (t : Finset ι) (f : ι → ℝ) :
    ((∑ i ∈ t, f i : ℝ) : EReal) = ∑ i ∈ t, ((f i : ℝ) : EReal) := by
  classical
  refine Finset.induction_on t (by simp) ?_
  intro a t ha ih
  rw [Finset.sum_insert ha, Finset.sum_insert ha, EReal.coe_add, ih]

theorem fold_max_coe {ι : Type} (t : Finset ι) (ht : t.Nonempty) (f : ι → ℝ) :
    t.fold max (⊥ : EReal) (fun j => ((f j : ℝ) : EReal)) = ((t.sup' ht f : ℝ) : EReal) := by
  apply le_antisymm
  · rw [Finset.fold_max_le]
    exact ⟨bot_le, fun x hx => EReal.coe_le_coe_iff.2 (Finset.le_sup' f hx)⟩
  · rw [Finset.le_fold_max]
    obtain ⟨x, hx, hfx⟩ := Finset.exists_mem_eq_sup' ht f
    exact Or.inr ⟨x, hx, by rw [hfx]⟩

theorem sum_range_eq_sum_prod {κ : Type} [Fintype κ] (n : ℕ) (f : ℕ → κ → ℝ) :
    ∑ t ∈ Finset.range n, ∑ j, f t j = ∑ p : Fin n × κ, f p.1.val p.2 := by
  rw [Fintype.sum_prod_type, ← Fin.sum_univ_eq_sum_range (fun t => ∑ j, f t j) n]

theorem osStep_coe {κ : Type} [Fintype κ] [Nonempty κ] (M l a : ℝ) (s v : κ → ℝ) :
    osStep (((M : ℝ) : EReal), ((l : ℝ) : EReal), ((a : ℝ) : EReal))
        (fun j => ((s j : ℝ) : EReal)) (fun j => ((v j : ℝ) : EReal))
      = (((max M (Finset.univ.sup' Finset.univ_nonempty s) : ℝ) : EReal),
         ((Real.exp (M - max M (Finset.univ.sup' Finset.univ_nonempty s)) * l
            + ∑ j, Real.exp (s j - max M (Finset.univ.sup' Finset.univ_nonempty s)) : ℝ) : EReal),
         ((Real.exp (M - max M (Finset.univ.sup' Finset.univ_nonempty s)) * a
            + ∑ j, Real.exp (s j - max M (Finset.univ.sup' Finset.univ_nonempty s)) * v j : ℝ) : EReal)) := by
  have hmax : max ((M : ℝ) : EReal) (Finset.univ.fold max (⊥ : EReal) (fun j => ((s j : ℝ) : EReal)))
      = ((max M (Finset.univ.sup' Finset.univ_nonempty s) : ℝ) : EReal) := by
    rw [fold_max_coe Finset.univ Finset.univ_nonempty s]
    exact (EReal.coe_strictMono.monotone.map_max).symm
  simp only [osStep, hmax, ← EReal.coe_sub, Ideal.exp_coe, ← EReal.coe_mul, ← coe_sum, ← EReal.coe_add]

theorem osStep_bot {κ : Type} [Fintype κ] [Nonempty κ] (s v : κ → ℝ) :
    osStep ((⊥ : EReal), (0 : EReal), (0 : EReal)) (fun j => ((s j : ℝ) : EReal)) (fun j => ((v j : ℝ) : EReal))
      = (((Finset.univ.sup' Finset.univ_nonempty s : ℝ) : EReal),
         ((∑ j, Real.exp (s j - Finset.univ.sup' Finset.univ_nonempty s) : ℝ) : EReal),
         ((∑ j, Real.exp (s j - Finset.univ.sup' Finset.univ_nonempty s) * v j : ℝ) : EReal)) := by
  have hmax : max (⊥ : EReal) (Finset.univ.fold max (⊥ : EReal) (fun j => ((s j : ℝ) : EReal)))
      = ((Finset.univ.sup' Finset.univ_nonempty s : ℝ) : EReal) := by
    rw [fold_max_coe Finset.univ Finset.univ_nonempty s]
    exact max_eq_right bot_le
  simp only [osStep, hmax, EReal.bot_sub, Ideal.exp_bot, mul_zero, zero_add, ← EReal.coe_sub, Ideal.exp_coe,
    ← EReal.coe_mul, ← coe_sum]

theorem rescale_sum {κ : Type} [Fintype κ] (M M' : ℝ) (n : ℕ) (s w : ℕ → κ → ℝ) :
    Real.exp (M - M') * (∑ t ∈ Finset.range n, ∑ j, Real.exp (s t j - M) * w t j)
        + ∑ j, Real.exp (s n j - M') * w n j
      = ∑ t ∈ Finset.range (n + 1), ∑ j, Real.exp (s t j - M') * w t j := by
  rw [Finset.sum_range_succ, Finset.mul_sum]
  congr 1
  apply Finset.sum_congr rfl
  intro t _
  rw [Finset.mul_sum]
  apply Finset.sum_congr rfl
  intro j _
  have h : M - M' + (s t j - M) = s t j - M' := by ring
  rw [← mul_assoc, ← Real.exp_add, h]

theorem rescale_sum_one {κ : Type} [Fintype κ] (M M' : ℝ) (n : ℕ) (s : ℕ → κ → ℝ) :
    Real.exp (M - M') * (∑ t ∈ Finset.range n, ∑ j, Real.exp (s t j - M))
        + ∑ j, Real.exp (s n j - M')
      = ∑ t ∈ Finset.range (n + 1), ∑ j, Real.exp (s t j - M') := by
  simpa using rescale_sum M M' n s (fun _ _ => 1)

theorem osRun_succ_inv {κ : Type} [Fintype κ] [Nonempty κ] (s v : ℕ → κ → ℝ) (k : ℕ) :
    ∃ M : ℝ, (∀ t, t < k + 1 → ∀ j, s t j ≤ M) ∧ (∃ t, t < k + 1 ∧ ∃ j, s t j = M) ∧
      osRun (fun t j => ((s t j : ℝ) : EReal)) (fun t j => ((v t j : ℝ) : EReal)) (k + 1)
        = (((M : ℝ) : EReal),
           ((∑ t ∈ Finset.range (k + 1), ∑ j, Real.exp (s t j - M) : ℝ) : EReal),
           ((∑ t ∈ Finset.range (k + 1), ∑ j, Real.exp (s t j - M) * v t j : ℝ) : EReal)) := by
  induction k with
  | zero =>
    refine ⟨Finset.univ.sup' Finset.univ_nonempty (s 0), ?_, ?_, ?_⟩
    · intro t ht j
      have h0 : t = 0 := by omega
      subst h0
      exact Finset.le_sup' (s 0) (Finset.mem_univ j)
    · obtain ⟨j, _, hj⟩ := Finset.exists_mem_eq_sup' Finset.univ_nonempty (s 0)
      exact ⟨0, by omega, j, hj.symm⟩
    · show osStep ((⊥ : EReal), (0 : EReal), (0 : EReal)) (fun j => ((s 0 j : ℝ) : EReal))
          (fun j => ((v 0 j : ℝ) : EReal)) = _
      rw [osStep_bot (s 0) (v 0), Finset.sum_range_one, Finset.sum_range_one]
  | succ k ih =>
    obtain ⟨M, hle, ⟨t0, ht0, j0, hj0⟩, hrun⟩ := ih
    refine ⟨max M (Finset.univ.sup' Finset.univ_nonempty (s (k + 1))), ?_, ?_, ?_⟩
    · intro t ht j
      rcases Nat.lt_succ_iff_lt_or_eq.1 ht with h | h
      · exact le_trans (hle t h j) (le_max_left _ _)
      · subst h
        exact le_trans (Finset.le_sup' (s (k + 1)) (Finset.mem_univ j)) (le_max_right _ _)
    · rcases max_choice M (Finset.univ.sup' Finset.univ_nonempty (s (k + 1))) with h | h
      · rw [h]
        exact ⟨t0, by omega, j0, hj0⟩
      · rw [h]
        obtain ⟨j, _, hj⟩ := Finset.exists_mem_eq_sup' Finset.univ_nonempty (s (k + 1))
        exact ⟨k + 1, by omega, j, hj.symm⟩
    · show osStep (osRun (fun t j => ((s t j : ℝ) : EReal)) (fun t j => ((v t j : ℝ) : EReal)) (k + 1))
          (fun j => ((s (k + 1) j : ℝ) : EReal)) (fun j => ((v (k + 1) j : ℝ) : EReal)) = _
      rw [hrun, osStep_coe _ _ _ (s (k + 1)) (v (k + 1)), rescale_sum_one, rescale_sum]

theorem osRun_final {κ : Type} [Fintype κ] [Nonempty κ] (T : ℕ) (hT : 0 < T) (s v : ℕ → κ → ℝ) (ε : ℝ) (hε0 : 0 < ε) (hε1 : ε ≤ 1) :
    Ideal.div (osRun (fun t j => ((s t j : ℝ) : EReal)) (fun t j => ((v t j : ℝ) : EReal)) T).2.2
        (max (osRun (fun t j => ((s t j : ℝ) : EReal)) (fun t j => ((v t j : ℝ) : EReal)) T).2.1 ((ε : ℝ) : EReal))
      = (((∑ p : Fin T × κ, Real.exp (s p.1.val p.2 - gmax T hT s) * v p.1.val p.2)
          / (∑ p : Fin T × κ, Real.exp (s p.1.val p.2 - gmax T hT s)) : ℝ) : EReal) := by
  obtain ⟨k, rfl⟩ : ∃ k, T = k + 1 := ⟨T - 1, by omega⟩
  obtain ⟨M, hle, ⟨t0, ht0, j0, hj0⟩, hrun⟩ := osRun_succ_inv s v k
  have hM : M = gmax (k + 1) hT s := by
    apply le_antisymm
    · rw [← hj0]
      exact Finset.le_sup' (fun p : Fin (k + 1) × κ => s p.1.val p.2) (Finset.mem_univ ((⟨t0, ht0⟩ : Fin (k + 1)), j0))
    · exact Finset.sup'_le _ _ (fun p _ => hle p.1.val p.1.isLt p.2)
  have hL1 : 1 ≤ ∑ t ∈ Finset.range (k + 1), ∑ j, Real.exp (s t j - M) := by
    calc (1 : ℝ) = Real.exp (s t0 j0 - M) := by rw [hj0, sub_self, Real.exp_zero]
      _ ≤ ∑ j, Real.exp (s t0 j - M) :=
          Finset.single_le_sum (f := fun j => Real.exp (s t0 j - M)) (fun j _ => (Real.exp_pos _).le)
            (Finset.mem_univ j0)
      _ ≤ ∑ t ∈ Finset.range (k + 1), ∑ j, Real.exp (s t j - M) :=
          Finset.single_le_sum (f := fun t => ∑ j, Real.exp (s t j - M))
            (fun t _ => Finset.sum_nonneg (fun j _ => (Real.exp_pos _).le)) (Finset.mem_range.2 ht0)
  have hL0 : (∑ t ∈ Finset.range (k + 1), ∑ j, Real.exp (s t j - M)) ≠ 0 := by linarith
  rw [hrun]
  show Ideal.div ((∑ t ∈ Finset.range (k + 1), ∑ j, Real.exp (s t j - M) * v t j : ℝ) : EReal)
      (max ((∑ t ∈ Finset.range (k + 1), ∑ j, Real.exp (s t j - M) : ℝ) : EReal) ((ε : ℝ) : EReal)) = _
  rw [max_eq_left (EReal.coe_le_coe_iff.2 (le_trans hε1 hL1)), Ideal.div_coe hL0, ← EReal.coe_mul, mul_one_div,
    sum_range_eq_sum_prod (k + 1) (fun t j => Real.exp (s t j - M) * v t j),
    sum_range_eq_sum_prod (k + 1) (fun t j => Real.exp (s t j - M)), hM]

theorem softmax_sum {ι : Type} [Fintype ι] [Nonempty ι] (s v : ι → ℝ) :
    (∑ n, Ideal.div (Ideal.exp (((s n : ℝ) : EReal) - max (⊥ : EReal) (Finset.univ.fold max (⊥ : EReal) (fun n => ((s n : ℝ) : EReal)))))
            ((0 : EReal) + ∑ n', Ideal.exp (((s n' : ℝ) : EReal) - max (⊥ : EReal) (Finset.univ.fold max (⊥ : EReal) (fun n => ((s n : ℝ) : EReal)))))
          * ((v n : ℝ) : EReal))
      = (((∑ n, Real.exp (s n - Finset.univ.sup' Finset.univ_nonempty s) * v n)
          / (∑ n, Real.exp (s n - Finset.univ.sup' Finset.univ_nonempty s)) : ℝ) : EReal) := by
  have hmax : max (⊥ : EReal) (Finset.univ.fold max (⊥ : EReal) (fun n => ((s n : ℝ) : EReal)))
      = ((Finset.univ.sup' Finset.univ_nonempty s : ℝ) : EReal) := by
    rw [fold_max_coe Finset.univ Finset.univ_nonempty s]
    exact max_eq_right bot_le
  have hLpos : 0 < ∑ n, Real.exp (s n - Finset.univ.sup' Finset.univ_nonempty s) :=
    Finset.sum_pos (fun n _ => Real.exp_pos _) Finset.univ_nonempty
  simp only [hmax, zero_add, ← EReal.coe_sub, Ideal.exp_coe, ← coe_sum]
  simp only [Ideal.div_coe hLpos.ne', ← EReal.coe_mul, ← coe_sum]
  congr 1
  rw [Finset.sum_div]
  apply Finset.sum_congr rfl
  intro n _
  ring

theorem quotient_reindex {κ ι : Type} [Fintype κ] [Nonempty κ] [Fintype ι] [Nonempty ι] (T : ℕ) (hT : 0 < T)
    (e : ι ≃ Fin T × κ) (s v : ℕ → κ → ℝ) :
    ((∑ p : Fin T × κ, Real.exp (s p.1.val p.2 - gmax T hT s) * v p.1.val p.2)
        / (∑ p : Fin T × κ, Real.exp (s p.1.val p.2 - gmax T hT s)))
      = ((∑ n : ι, Real.exp (s (e n).1.val (e n).2 - Finset.univ.sup' Finset.univ_nonempty (fun n : ι => s (e n).1.val (e n).2)) * v (e n).1.val (e n).2)
        / (∑ n : ι, Real.exp (s (e n).1.val (e n).2 - Finset.univ.sup' Finset.univ_nonempty (fun n : ι => s (e n).1.val (e n).2)))) := by
  have hG : gmax T hT s = Finset.univ.sup' Finset.univ_nonempty (fun n : ι => s (e n).1.val (e n).2) := by
    unfold gmax
    apply le_antisymm
    · apply Finset.sup'_le
      intro p _
      have h := Finset.le_sup' (fun n : ι => s (e n).1.val (e n).2) (Finset.mem_univ (e.symm p))
      simp only [Equiv.apply_symm_apply] at h
      exact h
    · apply Finset.sup'_le
      intro n _
      exact Finset.le_sup' (fun p : Fin T × κ => s p.1.val p.2) (Finset.mem_univ (e n))
  rw [hG]
  congr 1
  · exact (Fintype.sum_equiv e _ _ (fun _ => rfl)).symm
  · exact (Fintype.sum_equiv e _ _ (fun _ => rfl)).symm

end Cert.Attn

end
-- ==== Proof.LibVecRows.lean ====
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  shapeCast_apply v h _ _ (by
    have hz : z.val = 0 := by omega
    rw [Shape.rowMajor_val_one, Shape.rowMajor_val_two]
    show p.val = p.val * 1 + z.val
    rw [hz, Nat.mul_one, Nat.add_zero])

theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.IdealValue.StepAt.lean ====
import proofs.«406710_j33887291965459_3_alg».proof.Proof.IdealFrame.Steps
import proofs.«406710_j33887291965459_3_alg».proof.Proof.OnlineSoftmax
import proofs.«406710_j33887291965459_3_alg».proof.Proof.LibVecRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Body
open Idealize.ShloMosaic Idealize.ShloMosaic.ValueIdx

def score (Q Kt : Vec Ideal S256x1024 .bf16) (r j : Fin 1024) : EReal := ∑ e : Fin 256, Q (ix2 e r) * Kt (ix2 e j)

theorem ofBits_neg_inf_f32 : Ideal.ofBits .f32 0xFF800000#32 = ⊥ := by simp [Ideal.ofBits, Ideal.ieee]

theorem lhs_scores_0 (i : S1024x1024.Idx) (q : dot_S256x1024_S256x1024_S1024x1024_0_0_1_1_n_n.contr.Idx) :
    (dot_S256x1024_S256x1024_S1024x1024_0_0_1_1_n_n.lhsIdx i q 0).val = (q ⟨0, by decide⟩).val :=
  dot_S256x1024_S256x1024_S1024x1024_0_0_1_1_n_n.lhsIdx_val_of_single rfl i q
theorem lhs_scores_1 (i : S1024x1024.Idx) (q : dot_S256x1024_S256x1024_S1024x1024_0_0_1_1_n_n.contr.Idx) :
    (dot_S256x1024_S256x1024_S1024x1024_0_0_1_1_n_n.lhsIdx i q 1).val = (i 0).val := by
  unfold DotDims.lhsIdx
  rw [dif_neg (show ¬(1 : Fin S256x1024.rank) ∈ dot_S256x1024_S256x1024_S1024x1024_0_0_1_1_n_n.lhsBatch by decide), dif_pos (show (1 : Fin S256x1024.rank) ∈ dot_S256x1024_S256x1024_S1024x1024_0_0_1_1_n_n.lhsNonContracting by decide)]
  rfl
theorem rhs_scores_0 (i : S1024x1024.Idx) (q : dot_S256x1024_S256x1024_S1024x1024_0_0_1_1_n_n.contr.Idx) :
    (dot_S256x1024_S256x1024_S1024x1024_0_0_1_1_n_n.rhsIdx i q 0).val = (q ⟨0, by decide⟩).val :=
  dot_S256x1024_S256x1024_S1024x1024_0_0_1_1_n_n.rhsIdx_val_of_single rfl i q
theorem rhs_scores_1 (i : S1024x1024.Idx) (q : dot_S256x1024_S256x1024_S1024x1024_0_0_1_1_n_n.contr.Idx) :
    (dot_S256x1024_S256x1024_S1024x1024_0_0_1_1_n_n.rhsIdx i q 1).val = (i 1).val := by
  unfold DotDims.rhsIdx
  rw [dif_neg (show ¬(1 : Fin S256x1024.rank) ∈ dot_S256x1024_S256x1024_S1024x1024_0_0_1_1_n_n.rhsBatch by decide), dif_pos (show (1 : Fin S256x1024.rank) ∈ dot_S256x1024_S256x1024_S1024x1024_0_0_1_1_n_n.rhsNonContracting by decide)]
  rfl

theorem scores_apply (Q Kt : Vec Ideal S256x1024 .bf16) (r c : Fin 1024) :
    k0_pay11 (F := Ideal) Q Kt (ix2 r c) = score Q Kt r c := by
  unfold score
  refine (Ideal.matmul_constant_zero_apply (φ₁ := .bf16) (φ₂ := .bf16) dot_S256x1024_S256x1024_S1024x1024_0_0_1_1_n_n none Q Kt (ix2 r c)).trans ?_
  rw [← Equiv.sum_comp (ValueIdx.contrEquiv1 dot_S256x1024_S256x1024_S1024x1024_0_0_1_1_n_n 256 rfl rfl).symm]
  refine Finset.sum_congr rfl fun k _ => ?_
  have hk := ValueIdx.contrEquiv1_symm_val dot_S256x1024_S256x1024_S1024x1024_0_0_1_1_n_n 256 rfl rfl k
  have el : dot_S256x1024_S256x1024_S1024x1024_0_0_1_1_n_n.lhsIdx (ix2 r c) ((ValueIdx.contrEquiv1 dot_S256x1024_S256x1024_S1024x1024_0_0_1_1_n_n 256 rfl rfl).symm k) = ix2 k r := funext fun a => Fin.ext (by
    match a with
    | ⟨0, _⟩ => exact (lhs_scores_0 _ _).trans hk
    | ⟨1, _⟩ => exact lhs_scores_1 _ _)
  have er : dot_S256x1024_S256x1024_S1024x1024_0_0_1_1_n_n.rhsIdx (ix2 r c) ((ValueIdx.contrEquiv1 dot_S256x1024_S256x1024_S1024x1024_0_0_1_1_n_n 256 rfl rfl).symm k) = ix2 k c := funext fun a => Fin.ext (by
    match a with
    | ⟨0, _⟩ => exact (rhs_scores_0 _ _).trans hk
    | ⟨1, _⟩ => exact rhs_scores_1 _ _)
  rw [el, er]

theorem lhs_pv_0 (i : S1024x256.Idx) (q : dot_S1024x1024_S256x1024_S1024x256_1_1_0_0_n_n.contr.Idx) :
    (dot_S1024x1024_S256x1024_S1024x256_1_1_0_0_n_n.lhsIdx i q 0).val = (i 0).val := by
  unfold DotDims.lhsIdx
  rw [dif_neg (show ¬(0 : Fin S1024x1024.rank) ∈ dot_S1024x1024_S256x1024_S1024x256_1_1_0_0_n_n.lhsBatch by decide), dif_pos (show (0 : Fin S1024x1024.rank) ∈ dot_S1024x1024_S256x1024_S1024x256_1_1_0_0_n_n.lhsNonContracting by decide)]
  rfl
theorem lhs_pv_1 (i : S1024x256.Idx) (q : dot_S1024x1024_S256x1024_S1024x256_1_1_0_0_n_n.contr.Idx) :
    (dot_S1024x1024_S256x1024_S1024x256_1_1_0_0_n_n.lhsIdx i q 1).val = (q ⟨0, by decide⟩).val :=
  dot_S1024x1024_S256x1024_S1024x256_1_1_0_0_n_n.lhsIdx_val_of_single rfl i q
theorem rhs_pv_0 (i : S1024x256.Idx) (q : dot_S1024x1024_S256x1024_S1024x256_1_1_0_0_n_n.contr.Idx) :
    (dot_S1024x1024_S256x1024_S1024x256_1_1_0_0_n_n.rhsIdx i q 0).val = (i 1).val := by
  unfold DotDims.rhsIdx
  rw [dif_neg (show ¬(0 : Fin S256x1024.rank) ∈ dot_S1024x1024_S256x1024_S1024x256_1_1_0_0_n_n.rhsBatch by decide), dif_pos (show (0 : Fin S256x1024.rank) ∈ dot_S1024x1024_S256x1024_S1024x256_1_1_0_0_n_n.rhsNonContracting by decide)]
  rfl
theorem rhs_pv_1 (i : S1024x256.Idx) (q : dot_S1024x1024_S256x1024_S1024x256_1_1_0_0_n_n.contr.Idx) :
    (dot_S1024x1024_S256x1024_S1024x256_1_1_0_0_n_n.rhsIdx i q 1).val = (q ⟨0, by decide⟩).val :=
  dot_S1024x1024_S256x1024_S1024x256_1_1_0_0_n_n.rhsIdx_val_of_single rfl i q

theorem pv_apply (P : FVec Ideal S1024x1024 .bf16) (Vt : Vec Ideal S256x1024 .bf16) (r : Fin 1024) (f : Fin 256) :
    matmul (F := Ideal) (φ₁ := .bf16) (φ₂ := .bf16) dot_S1024x1024_S256x1024_S1024x256_1_1_0_0_n_n none P Vt (constant S1024x256 .f32 0x00000000#32) (ix2 r f)
      = ∑ k : Fin 1024, P (ix2 r k) * Vt (ix2 f k) := by
  refine (Ideal.matmul_constant_zero_apply (φ₁ := .bf16) (φ₂ := .bf16) dot_S1024x1024_S256x1024_S1024x256_1_1_0_0_n_n none P Vt (ix2 r f)).trans ?_
  rw [← Equiv.sum_comp (ValueIdx.contrEquiv1 dot_S1024x1024_S256x1024_S1024x256_1_1_0_0_n_n 1024 rfl rfl).symm]
  refine Finset.sum_congr rfl fun k _ => ?_
  have hk := ValueIdx.contrEquiv1_symm_val dot_S1024x1024_S256x1024_S1024x256_1_1_0_0_n_n 1024 rfl rfl k
  have el : dot_S1024x1024_S256x1024_S1024x256_1_1_0_0_n_n.lhsIdx (ix2 r f) ((ValueIdx.contrEquiv1 dot_S1024x1024_S256x1024_S1024x256_1_1_0_0_n_n 1024 rfl rfl).symm k) = ix2 r k := funext fun a => Fin.ext (by
    match a with
    | ⟨0, _⟩ => exact lhs_pv_0 _ _
    | ⟨1, _⟩ => exact (lhs_pv_1 _ _).trans hk)
  have er : dot_S1024x1024_S256x1024_S1024x256_1_1_0_0_n_n.rhsIdx (ix2 r f) ((ValueIdx.contrEquiv1 dot_S1024x1024_S256x1024_S1024x256_1_1_0_0_n_n 1024 rfl rfl).symm k) = ix2 f k := funext fun a => Fin.ext (by
    match a with
    | ⟨0, _⟩ => exact rhs_pv_0 _ _
    | ⟨1, _⟩ => exact (rhs_pv_1 _ _).trans hk)
  rw [el, er]

theorem multiReduction_rowmax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  show (Finset.univ : Finset (Fin b)).fold max (Ideal.ofBits φ acc) (fun k => src (h.lift (ix1 p) k)) = _
  refine congrArg (fun g => (Finset.univ : Finset (Fin b)).fold max (Ideal.ofBits φ acc) g) ?_
  funext k
  refine congrArg src ?_
  funext c
  match c with
  | ⟨0, _⟩ => exact Fin.ext rfl
  | ⟨1, _⟩ => exact Fin.ext rfl

theorem exp_apply {s : Shape} {φ : FTy} (a : FVec Ideal s φ) (i : s.Idx) : exp a i = Ideal.exp (a i) := rfl

theorem osStep_fst {κ : Type} [Fintype κ] (m l a : EReal) (s v : κ → EReal) :
    (Cert.Attn.osStep (m, l, a) s v).1 = max m (Finset.univ.fold max (⊥ : EReal) s) := rfl
theorem osStep_snd_fst {κ : Type} [Fintype κ] (m l a : EReal) (s v : κ → EReal) :
    (Cert.Attn.osStep (m, l, a) s v).2.1
      = Ideal.exp (m - max m (Finset.univ.fold max (⊥ : EReal) s)) * l
        + ∑ j, Ideal.exp (s j - max m (Finset.univ.fold max (⊥ : EReal) s)) := rfl
theorem osStep_snd_snd {κ : Type} [Fintype κ] (m l a : EReal) (s v : κ → EReal) :
    (Cert.Attn.osStep (m, l, a) s v).2.2
      = Ideal.exp (m - max m (Finset.univ.fold max (⊥ : EReal) s)) * a
        + ∑ j, Ideal.exp (s j - max m (Finset.univ.fold max (⊥ : EReal) s)) * v j := rfl

theorem newmax_apply (Q Kt : Vec Ideal S256x1024 .bf16) (M : Vec Ideal S1024x1 .f32) (r : Fin 1024) (z : Fin 1) :
    k0_pay12 (F := Ideal) Q Kt M (ix2 r z)
      = max (M (ix2 r z)) (Finset.univ.fold max (⊥ : EReal) (score Q Kt r)) := by
  unfold k0_pay12
  refine (maximumf_apply _ _ _).trans ?_
  refine congrArg (max (M (ix2 r z))) ?_
  refine (Cert.LibVecRows.shapeCast_col_apply _ _ r z).trans ?_
  refine (multiReduction_rowmax_apply _ _ _ _ _ r).trans ?_
  rw [ofBits_neg_inf_f32]
  refine congrArg (fun g => Finset.univ.fold max (⊥ : EReal) g) ?_
  funext c
  exact scores_apply Q Kt r c

theorem alpha_apply (Q Kt : Vec Ideal S256x1024 .bf16) (M : Vec Ideal S1024x1 .f32) (r : Fin 1024) (z : Fin 1) :
    k0_pay13 (F := Ideal) Q Kt M (ix2 r z)
      = Ideal.exp (M (ix2 r z) - max (M (ix2 r z)) (Finset.univ.fold max (⊥ : EReal) (score Q Kt r))) := by
  unfold k0_pay13
  refine (exp_apply _ _).trans ?_
  refine congrArg Ideal.exp ?_
  refine (subf_apply _ _ _).trans ?_
  rw [newmax_apply]

theorem weight_apply (Q Kt : Vec Ideal S256x1024 .bf16) (M : Vec Ideal S1024x1 .f32) (r c : Fin 1024) :
    k0_pay14 (F := Ideal) Q Kt M (ix2 r c)
      = Ideal.exp (score Q Kt r c - max (M (ix2 r (0 : Fin 1))) (Finset.univ.fold max (⊥ : EReal) (score Q Kt r))) := by
  unfold k0_pay14
  refine (exp_apply _ _).trans ?_
  refine congrArg Ideal.exp ?_
  refine (subf_apply _ _ _).trans ?_
  rw [scores_apply, Cert.LibVecRows.broadcastTo_col_apply, newmax_apply]

theorem stepM_apply (Q Kt : Vec Ideal S256x1024 .bf16) (M : Vec Ideal S1024x1 .f32) (r : Fin 1024) (z : Fin 1)
    (l a : EReal) (v : Fin 1024 → EReal) :
    stepM (F := Ideal) Q Kt M (ix2 r z) = (Cert.Attn.osStep (M (ix2 r z), l, a) (score Q Kt r) v).1 := by
  unfold stepM k0_pay2
  refine (congrFun (shapeCast_self _ _) _).trans ?_
  refine (newmax_apply Q Kt M r z).trans ?_
  exact (osStep_fst _ _ _ _ _).symm

theorem stepL_apply (Q Kt : Vec Ideal S256x1024 .bf16) (M L : Vec Ideal S1024x1 .f32) (r : Fin 1024) (z : Fin 1)
    (a : EReal) (v : Fin 1024 → EReal) :
    stepL (F := Ideal) Q Kt M L (ix2 r z) = (Cert.Attn.osStep (M (ix2 r z), L (ix2 r z), a) (score Q Kt r) v).2.1 := by
  have hz : z = 0 := Fin.fin_one_eq_zero z
  subst hz
  unfold stepL k0_pay15
  refine (congrFun (shapeCast_self _ _) _).trans ?_
  refine (addf_apply _ _ _).trans ?_
  rw [osStep_snd_fst]
  refine congrArg₂ (· + ·) ?_ ?_
  · refine (mulf_apply _ _ _).trans ?_
    rw [alpha_apply]
  · refine (Cert.LibVecRows.shapeCast_col_apply _ _ r 0).trans ?_
    refine (Cert.LibVecRows.multiReduction_rows_apply _ _ _ _ _ r).trans ?_
    exact Finset.sum_congr rfl fun c _ => weight_apply Q Kt M r c

theorem stepA_apply (Q Kt Vt : Vec Ideal S256x1024 .bf16) (M : Vec Ideal S1024x1 .f32) (A : Vec Ideal S1024x256 .f32)
    (r : Fin 1024) (f : Fin 256) (z : Fin 1) (l : EReal) :
    stepA (F := Ideal) Q Kt Vt M A (ix2 r f)
      = (Cert.Attn.osStep (M (ix2 r z), l, A (ix2 r f)) (score Q Kt r) (fun j => Vt (ix2 f j))).2.2 := by
  have hz : z = 0 := Fin.fin_one_eq_zero z
  subst hz
  unfold stepA k0_pay1
  refine (congrFun (shapeCast_self _ _) _).trans ?_
  refine (addf_apply _ _ _).trans ?_
  rw [osStep_snd_snd]
  refine congrArg₂ (· + ·) ?_ ?_
  · refine (mulf_apply _ _ _).trans ?_
    rw [Cert.LibVecRows.broadcastTo_col_apply, alpha_apply]
  · refine (pv_apply _ Vt r f).trans ?_
    refine Finset.sum_congr rfl fun c _ => ?_
    refine congrArg (· * Vt (ix2 f c)) ?_
    unfold k0_pay16
    refine (truncf_apply (ψ := .bf16) (k0_pay14 (F := Ideal) Q Kt M) bitsLt_bf16_f32 (ix2 r c)).trans ?_
    exact weight_apply Q Kt M r c

end Cert.KernelIdeal.Val

end
-- ==== Proof.IdealValue.OutAt.lean ====
import proofs.«406710_j33887291965459_3_alg».proof.Proof.IdealFrame.Steps
import proofs.«406710_j33887291965459_3_alg».proof.Proof.LibVecRows
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Val

open Cert.KernelIdeal Cert.KernelIdeal.Gen Cert.KernelIdeal.Body
open Idealize.ShloMosaic Idealize.ShloMosaic.ValueIdx

theorem neg_big_eq : Named.named (F := Ideal) (φ := .f32) κ "neg_big" 0xFF333332#32 = (⊥ : EReal) :=
  IdealRules.named_const.ideal_named_scalar κ "neg_big" _ ⊥ rfl

theorem inv_big_eq : (Named.named (F := Ideal) (φ := .f32) κ "inv_1000000000000000000000000000000" 0x0DA24260#32) = (((1 / 1000000000000000000000000000000 : ℝ)) : EReal) :=
  IdealRules.named_const.ideal_named_scalar κ "inv_1000000000000000000000000000000" _ _ rfl

theorem pay8_apply (j : S1024x1.Idx) : k0_pay8 (F := Ideal) j = (⊥ : EReal) := by
  show shapeCast S1024x1 (broadcast S1024x1 (Named.named (F := Ideal) (φ := .f32) κ "neg_big" 0xFF333332#32)) shapeCasts_S1024x1_S1024x1 j = _
  rw [shapeCast_self]
  exact neg_big_eq
theorem pay9_apply (j : S1024x1.Idx) : k0_pay9 (F := Ideal) j = (0 : EReal) := by
  show shapeCast S1024x1 (broadcast S1024x1 (Ideal.ofBits .f32 0x00000000#32)) shapeCasts_S1024x1_S1024x1 j = _
  rw [shapeCast_self]
  exact Ideal.ofBits_zero_f32
theorem pay10_apply (j : S1024x256.Idx) : k0_pay10 (F := Ideal) j = (0 : EReal) := by
  show shapeCast S1024x256 (broadcast S1024x256 (Ideal.ofBits .f32 0x00000000#32)) shapeCasts_S1024x256_S1024x256 j = _
  rw [shapeCast_self]
  exact Ideal.ofBits_zero_f32

theorem off5_eq : ∀ t : Fin cfg0.N, k0_off5 (grid0.coords t) = ![0, 0, 1024 * ((t.val / 4) % 4)] :=
  (by decide +kernel : ∀ t : Fin grid0.N, k0_off5 (grid0.coords t) = ![0, 0, 1024 * ((t.val / 4) % 4)])

theorem ld_slab_apply {off : Fin 3 → Nat} {m : ℕ} (h : off = ![0, 0, m])
    (p : ∀ a, off a + S1x256x1024.size a ≤ S1x256x4096.size a) (x0 : Vec Ideal S1x256x4096 .f32)
    (z : Fin 1) (e : Fin 256) (r : Fin 1024) (hm : m + r.val < 4096) :
    View.ld x0 (Rect.unit (s := S1x256x4096) off S1x256x1024.size p) (ix3 z e r) = x0 (ix3 z e (⟨m + r.val, hm⟩ : Fin 4096)) := by
  subst h
  show x0 ((Rect.unit (s := S1x256x4096) ![0, 0, m] S1x256x1024.size p).idx (ix3 z e r)) = _
  refine congrArg x0 (funext fun a => Fin.ext ?_)
  match a with
  | ⟨0, _⟩ => show 0 + 1 * z.val = z.val; omega
  | ⟨1, _⟩ => show 0 + 1 * e.val = e.val; omega
  | ⟨2, _⟩ => show m + 1 * r.val = m + r.val; omega

theorem xOt_apply (t : Fin cfg0.N) (h : condO (grid0.coords t)) (x0 : Vec Ideal S1x256x4096 .f32) (z : Fin 1) (e : Fin 256) (r : Fin 1024) :
    xOt (F := Ideal) (grid0.coords t) h x0 (ix3 z e r)
      = x0 (ix3 z e (⟨1024 * ((t.val / 4) % 4) + r.val, by have := r.isLt; have : (t.val / 4) % 4 < 4 := Nat.mod_lt _ (by decide); omega⟩ : Fin 4096)) := by
  unfold xOt
  exact ld_slab_apply (off5_eq t) _ x0 z e r _

theorem lhs_oproj_0 (i : S256x1024.Idx) (q : dot_S256x256_S1024x256_S256x1024_1_1_0_0_n_n.contr.Idx) :
    (dot_S256x256_S1024x256_S256x1024_1_1_0_0_n_n.lhsIdx i q 0).val = (i 0).val := by
  unfold DotDims.lhsIdx
  rw [dif_neg (show ¬(0 : Fin S256x256.rank) ∈ dot_S256x256_S1024x256_S256x1024_1_1_0_0_n_n.lhsBatch by decide), dif_pos (show (0 : Fin S256x256.rank) ∈ dot_S256x256_S1024x256_S256x1024_1_1_0_0_n_n.lhsNonContracting by decide)]
  rfl
theorem lhs_oproj_1 (i : S256x1024.Idx) (q : dot_S256x256_S1024x256_S256x1024_1_1_0_0_n_n.contr.Idx) :
    (dot_S256x256_S1024x256_S256x1024_1_1_0_0_n_n.lhsIdx i q 1).val = (q ⟨0, by decide⟩).val :=
  dot_S256x256_S1024x256_S256x1024_1_1_0_0_n_n.lhsIdx_val_of_single rfl i q
theorem rhs_oproj_0 (i : S256x1024.Idx) (q : dot_S256x256_S1024x256_S256x1024_1_1_0_0_n_n.contr.Idx) :
    (dot_S256x256_S1024x256_S256x1024_1_1_0_0_n_n.rhsIdx i q 0).val = (i 1).val := by
  unfold DotDims.rhsIdx
  rw [dif_neg (show ¬(0 : Fin S1024x256.rank) ∈ dot_S256x256_S1024x256_S256x1024_1_1_0_0_n_n.rhsBatch by decide), dif_pos (show (0 : Fin S1024x256.rank) ∈ dot_S256x256_S1024x256_S256x1024_1_1_0_0_n_n.rhsNonContracting by decide)]
  rfl
theorem rhs_oproj_1 (i : S256x1024.Idx) (q : dot_S256x256_S1024x256_S256x1024_1_1_0_0_n_n.contr.Idx) :
    (dot_S256x256_S1024x256_S256x1024_1_1_0_0_n_n.rhsIdx i q 1).val = (q ⟨0, by decide⟩).val :=
  dot_S256x256_S1024x256_S256x1024_1_1_0_0_n_n.rhsIdx_val_of_single rfl i q

theorem proj_apply (W : FVec Ideal S256x256 .bf16) (O : FVec Ideal S1024x256 .bf16) (e : Fin 256) (r : Fin 1024) :
    matmul (F := Ideal) (φ₁ := .bf16) (φ₂ := .bf16) dot_S256x256_S1024x256_S256x1024_1_1_0_0_n_n none W O (constant S256x1024 .f32 0x00000000#32) (ix2 e r)
      = ∑ f : Fin 256, W (ix2 e f) * O (ix2 r f) := by
  refine (Ideal.matmul_constant_zero_apply (φ₁ := .bf16) (φ₂ := .bf16) dot_S256x256_S1024x256_S256x1024_1_1_0_0_n_n none W O (ix2 e r)).trans ?_
  rw [← Equiv.sum_comp (ValueIdx.contrEquiv1 dot_S256x256_S1024x256_S256x1024_1_1_0_0_n_n 256 rfl rfl).symm]
  refine Finset.sum_congr rfl fun k _ => ?_
  have hk := ValueIdx.contrEquiv1_symm_val dot_S256x256_S1024x256_S256x1024_1_1_0_0_n_n 256 rfl rfl k
  have el : dot_S256x256_S1024x256_S256x1024_1_1_0_0_n_n.lhsIdx (ix2 e r) ((ValueIdx.contrEquiv1 dot_S256x256_S1024x256_S256x1024_1_1_0_0_n_n 256 rfl rfl).symm k) = ix2 e k := funext fun a => Fin.ext (by
    match a with
    | ⟨0, _⟩ => exact lhs_oproj_0 _ _
    | ⟨1, _⟩ => exact (lhs_oproj_1 _ _).trans hk)
  have er : dot_S256x256_S1024x256_S256x1024_1_1_0_0_n_n.rhsIdx (ix2 e r) ((ValueIdx.contrEquiv1 dot_S256x256_S1024x256_S256x1024_1_1_0_0_n_n 256 rfl rfl).symm k) = ix2 r k := funext fun a => Fin.ext (by
    match a with
    | ⟨0, _⟩ => exact rhs_oproj_0 _ _
    | ⟨1, _⟩ => exact (rhs_oproj_1 _ _).trans hk)
  rw [el, er]

theorem cast_slab_apply {α : Type} (v : S1x256x1024.Idx → α) (e : Fin 256) (r : Fin 1024) :
    shapeCast S256x1024 v shapeCasts_S1x256x1024_S256x1024 (ix2 e r) = v (ix3 (0 : Fin 1) e r) :=
  shapeCast_apply v shapeCasts_S1x256x1024_S256x1024 _ _ (by
    rw [Shape.rowMajor_val_three, Shape.rowMajor_val_two]
    show ((0 : ℕ) * 256 + e.val) * 1024 + r.val = e.val * 1024 + r.val
    omega)

theorem cast_matrix_apply {α : Type} (v : S256x1024.Idx → α) (z : Fin 1) (e : Fin 256) (r : Fin 1024) :
    shapeCast S1x256x1024 v shapeCasts_S256x1024_S1x256x1024 (ix3 z e r) = v (ix2 e r) :=
  shapeCast_apply v shapeCasts_S256x1024_S1x256x1024 _ _ (by
    have hz : z.val = 0 := by omega
    rw [Shape.rowMajor_val_three, Shape.rowMajor_val_two]
    show e.val * 1024 + r.val = (z.val * 256 + e.val) * 1024 + r.val
    rw [hz]; omega)

theorem outB_apply (A : Vec Ideal S1024x256 .f32) (L : Vec Ideal S1024x1 .f32) (x3 : Vec Ideal S256x256 .f32) (x4 : Vec Ideal S256x1 .f32)
    (xo : Vec Ideal S1x256x1024 .f32) (z : Fin 1) (z' : Fin 1) (e : Fin 256) (r : Fin 1024) :
    outB (F := Ideal) A L x3 x4 xo (ix3 z e r)
      = xo (ix3 z e r) + ((∑ f : Fin 256, x3 (ix2 e f)
            * Ideal.div (A (ix2 r f)) (max (L (ix2 r z')) (((1 / 1000000000000000000000000000000 : ℝ) : EReal)))) + x4 (ix2 e z')) := by
  have hz : z = 0 := Fin.fin_one_eq_zero z
  have hz' : z' = 0 := Fin.fin_one_eq_zero z'
  subst hz; subst hz'
  unfold outB k0_pay3
  rw [cast_matrix_apply, addf_apply, cast_slab_apply, addf_apply, proj_apply, Cert.LibVecRows.broadcastTo_col_apply, shapeCast_self]
  refine congrArg (fun s => xo (ix3 0 e r) + (s + x4 (ix2 e 0))) ?_
  refine Finset.sum_congr rfl fun f _ => ?_
  rw [truncf_apply, truncf_apply, divf_apply, Cert.LibVecRows.broadcastTo_col_apply, maximumf_apply, broadcast_apply, inv_big_eq]

end Cert.KernelIdeal.Val

end
-- ==== Proof.IdealValue.RowState.lean ====
import proofs.«406710_j33887291965459_3_alg».proof.Proof.IdealFrame.Closed
import proofs.«406710_j33887291965459_3_alg».proof.Proof.IdealValue.StepAt
import proofs.«406710_j33887291965459_3_alg».proof.Proof.IdealValue.OutAt
import proofs.«406710_j33887291965459_3_alg».proof.Proof.OnlineSoftmax

noncomputable section

namespace Cert.KernelIdeal.Val

open Cert.KernelIdeal Cert.KernelIdeal.Gen Cert.KernelIdeal.Body
open Idealize.ShloMosaic Idealize.ShloMosaic.ValueIdx

open Cert.Attn

variable (m : (ℓ : Loc nD τ sig) → Buf (Elt Ideal) ℓ) (c : Dev nD) (p : Fin cfg0.N) (hp : condQ (grid0.coords p))

def rowAt (k : ℕ) (hk : k < 4) : Fin cfg0.N :=
  ⟨p.val + k, by have := (hcondQ p).mp hp; have := p.isLt; have : cfg0.N = 64 := N_0; omega⟩

def Krow (k : ℕ) : Vec Ideal S256x1024 .bf16 :=
  if h : k < 4 then kvK (F := Ideal) m c (kvPt (rowAt p hp k h)) (kvPt_cond _) else fun _ => (0 : EReal)
def Vrow (k : ℕ) : Vec Ideal S256x1024 .bf16 :=
  if h : k < 4 then kvV (F := Ideal) m c (kvPt (rowAt p hp k h)) (kvPt_cond _) else fun _ => (0 : EReal)

def sRow (r : Fin 1024) : ℕ → Fin 1024 → EReal := fun k j => score (rowQ (F := Ideal) m c p hp) (Krow m c p hp k) r j
def vRow (f : Fin 256) : ℕ → Fin 1024 → EReal := fun k j => Vrow m c p hp k (ix2 f j)

theorem rowQ_congr (q : Fin cfg0.N) (hq : condQ (grid0.coords q)) (e : q = p) : rowQ (F := Ideal) m c q hq = rowQ (F := Ideal) m c p hp := by
  subst e; rfl
theorem kvK_congr (q q' : Fin cfg0.N) (hq : condKV (grid0.coords q)) (hq' : condKV (grid0.coords q')) (e : q = q') :
    kvK (F := Ideal) m c q hq = kvK (F := Ideal) m c q' hq' := by subst e; rfl
theorem kvV_congr (q q' : Fin cfg0.N) (hq : condKV (grid0.coords q)) (hq' : condKV (grid0.coords q')) (e : q = q') :
    kvV (F := Ideal) m c q hq = kvV (F := Ideal) m c q' hq' := by subst e; rfl

theorem rowState : ∀ (k : ℕ) (n : ℕ) (hn : n < cfg0.N), n = p.val + k → k < 4 → ∀ (r : Fin 1024) (f : Fin 256) (z : Fin 1),
    ((stAt (F := Ideal) m c (n + 1) hn).M (ix2 r z), (stAt (F := Ideal) m c (n + 1) hn).L (ix2 r z), (stAt (F := Ideal) m c (n + 1) hn).A (ix2 r f))
      = osRun (sRow m c p hp r) (vRow m c p hp f) (k + 1)
  | k, n, hn, hnk, hk, r, f, z => by
    have hp4 := (hcondQ p).mp hp
    have hrow : rowPt ⟨n, hn⟩ = p := Fin.ext (by show 4 * (n / 4) = p.val; omega)
    have hQ : nQ (grid0.coords ⟨n, hn⟩) (B0 m c ⟨n, hn⟩) (B1 m c ⟨n, hn⟩) (B2 m c ⟨n, hn⟩) (stAt (F := Ideal) m c n (Nat.le_of_lt hn)).Q
        = rowQ (F := Ideal) m c p hp :=
      (nQ_spec m c ⟨n, hn⟩).trans (rowQ_congr m c p hp _ _ hrow)
    have hpt : (⟨n, hn⟩ : Fin cfg0.N) = rowAt p hp k hk := Fin.ext hnk
    have hK : useK (grid0.coords ⟨n, hn⟩) (B0 m c ⟨n, hn⟩) (B1 m c ⟨n, hn⟩) (B2 m c ⟨n, hn⟩) (stAt (F := Ideal) m c n (Nat.le_of_lt hn)).K
        = Krow m c p hp k := by
      unfold Krow; rw [dif_pos hk]
      exact (useK_spec m c ⟨n, hn⟩).trans (kvK_congr m c _ _ _ _ (congrArg kvPt hpt))
    have hV : useV (grid0.coords ⟨n, hn⟩) (B0 m c ⟨n, hn⟩) (B1 m c ⟨n, hn⟩) (B2 m c ⟨n, hn⟩) (stAt (F := Ideal) m c n (Nat.le_of_lt hn)).V
        = Vrow m c p hp k := by
      unfold Vrow; rw [dif_pos hk]
      exact (useV_spec m c ⟨n, hn⟩).trans (kvV_congr m c _ _ _ _ (congrArg kvPt hpt))
    have hstart : (m0 (grid0.coords ⟨n, hn⟩) (stAt (F := Ideal) m c n (Nat.le_of_lt hn)).M (ix2 r z),
          l0 (grid0.coords ⟨n, hn⟩) (stAt (F := Ideal) m c n (Nat.le_of_lt hn)).L (ix2 r z),
          a0 (grid0.coords ⟨n, hn⟩) (stAt (F := Ideal) m c n (Nat.le_of_lt hn)).A (ix2 r f))
        = osRun (sRow m c p hp r) (vRow m c p hp f) k := by
      cases k with
      | zero =>
        have e : (⟨n, hn⟩ : Fin cfg0.N) = p := Fin.ext (by show n = p.val; omega)
        have hc : condQ (grid0.coords ⟨n, hn⟩) := e ▸ hp
        unfold m0 l0 a0
        rw [if_pos hc, if_pos hc, if_pos hc, pay8_apply, pay9_apply, pay10_apply]
        rfl
      | succ k' =>
        have hc : ¬condQ (grid0.coords ⟨n, hn⟩) := fun h => by
          have := (hcondQ ⟨n, hn⟩).mp h
          have : (⟨n, hn⟩ : Fin cfg0.N).val = n := rfl
          omega
        unfold m0 l0 a0
        rw [if_neg hc, if_neg hc, if_neg hc]
        obtain ⟨n', rfl⟩ : ∃ n', n = n' + 1 := ⟨n - 1, by omega⟩
        exact rowState k' n' (Nat.lt_of_succ_lt hn) (by omega) (by omega) r f z
    show (nM (grid0.coords ⟨n, hn⟩) (B0 m c ⟨n, hn⟩) (B1 m c ⟨n, hn⟩) (B2 m c ⟨n, hn⟩) (stAt (F := Ideal) m c n (Nat.le_of_lt hn)).K
            (stAt (F := Ideal) m c n (Nat.le_of_lt hn)).Q (stAt (F := Ideal) m c n (Nat.le_of_lt hn)).M (ix2 r z),
          nL (grid0.coords ⟨n, hn⟩) (B0 m c ⟨n, hn⟩) (B1 m c ⟨n, hn⟩) (B2 m c ⟨n, hn⟩) (stAt (F := Ideal) m c n (Nat.le_of_lt hn)).K
            (stAt (F := Ideal) m c n (Nat.le_of_lt hn)).Q (stAt (F := Ideal) m c n (Nat.le_of_lt hn)).M (stAt (F := Ideal) m c n (Nat.le_of_lt hn)).L (ix2 r z),
          nA (grid0.coords ⟨n, hn⟩) (B0 m c ⟨n, hn⟩) (B1 m c ⟨n, hn⟩) (B2 m c ⟨n, hn⟩) (stAt (F := Ideal) m c n (Nat.le_of_lt hn)).K
            (stAt (F := Ideal) m c n (Nat.le_of_lt hn)).V (stAt (F := Ideal) m c n (Nat.le_of_lt hn)).Q (stAt (F := Ideal) m c n (Nat.le_of_lt hn)).M
            (stAt (F := Ideal) m c n (Nat.le_of_lt hn)).A (ix2 r f)) = _
    unfold nM nL nA
    rw [hQ, hK, hV]
    have e1 := stepM_apply (rowQ (F := Ideal) m c p hp) (Krow m c p hp k) (m0 (grid0.coords ⟨n, hn⟩) (stAt (F := Ideal) m c n (Nat.le_of_lt hn)).M) r z
      (l0 (grid0.coords ⟨n, hn⟩) (stAt (F := Ideal) m c n (Nat.le_of_lt hn)).L (ix2 r z))
      (a0 (grid0.coords ⟨n, hn⟩) (stAt (F := Ideal) m c n (Nat.le_of_lt hn)).A (ix2 r f)) (vRow m c p hp f k)
    have e2 := stepL_apply (rowQ (F := Ideal) m c p hp) (Krow m c p hp k) (m0 (grid0.coords ⟨n, hn⟩) (stAt (F := Ideal) m c n (Nat.le_of_lt hn)).M)
      (l0 (grid0.coords ⟨n, hn⟩) (stAt (F := Ideal) m c n (Nat.le_of_lt hn)).L) r z
      (a0 (grid0.coords ⟨n, hn⟩) (stAt (F := Ideal) m c n (Nat.le_of_lt hn)).A (ix2 r f)) (vRow m c p hp f k)
    have e3 := stepA_apply (rowQ (F := Ideal) m c p hp) (Krow m c p hp k) (Vrow m c p hp k) (m0 (grid0.coords ⟨n, hn⟩) (stAt (F := Ideal) m c n (Nat.le_of_lt hn)).M)
      (a0 (grid0.coords ⟨n, hn⟩) (stAt (F := Ideal) m c n (Nat.le_of_lt hn)).A) r f z
      (l0 (grid0.coords ⟨n, hn⟩) (stAt (F := Ideal) m c n (Nat.le_of_lt hn)).L (ix2 r z))
    rw [e1, e2, e3]
    show _ = osStep (osRun (sRow m c p hp r) (vRow m c p hp f) k) (sRow m c p hp r k) (vRow m c p hp f k)
    rw [← hstart]
    rfl

end Cert.KernelIdeal.Val

end
-- ==== Proof.Spec.lean ====
import Mathlib.Analysis.SpecialFunctions.Exp
import Mathlib.Algebra.BigOperators.Group.Finset.Basic
import Mathlib.Order.Fin.Basic
import Idealize.ShloMosaic.Lib.ValueIdx

noncomputable section

namespace Cert.Attn

def qF (e : Fin 256) : Fin 768 := ⟨e.val, by have := e.isLt; omega⟩
def kF (e : Fin 256) : Fin 768 := ⟨256 + e.val, by have := e.isLt; omega⟩
def vF (e : Fin 256) : Fin 768 := ⟨512 + e.val, by have := e.isLt; omega⟩

section
variable (x : Fin 4 → Fin 256 → Fin 4096 → ℝ) (W : Fin 768 → Fin 256 → ℝ) (bw : Fin 768 → ℝ)
  (Wo : Fin 256 → Fin 256 → ℝ) (bo : Fin 256 → ℝ)

def proj (b : Fin 4) (n : Fin 4096) (f : Fin 768) : ℝ := (∑ c : Fin 256, x b c n * W f c) + bw f

def scoreR (b : Fin 4) (i j : Fin 4096) : ℝ :=
  (∑ e : Fin 256, proj x W bw b i (qF e) * proj x W bw b j (kF e)) / 16

def rowMax (b : Fin 4) (i : Fin 4096) : ℝ :=
  Finset.univ.sup' (Finset.univ_nonempty (α := Fin 4096)) (fun j => scoreR x W bw b i j)

def attend (b : Fin 4) (i : Fin 4096) (f : Fin 256) : ℝ :=
  (∑ j : Fin 4096, Real.exp (scoreR x W bw b i j - rowMax x W bw b i) * proj x W bw b j (vF f))
    / (∑ j : Fin 4096, Real.exp (scoreR x W bw b i j - rowMax x W bw b i))

def Gr (b : Fin 4) (e : Fin 256) (n : Fin 4096) : ℝ :=
  x b e n + ((∑ f : Fin 256, attend x W bw b n f * Wo e f) + bo e)
end

open Idealize.ShloMosaic Idealize.ShloMosaic.ValueIdx

def tokRow (n : Fin 4096) : Fin 64 := ⟨n.val / 64, by have := n.isLt; omega⟩
def tokCol (n : Fin 4096) : Fin 64 := ⟨n.val % 64, Nat.mod_lt _ (by decide)⟩
def tokOf (h w : Fin 64) : Fin 4096 := ⟨64 * h.val + w.val, by have := h.isLt; have := w.isLt; omega⟩

def toX (xa : (⟨4, ![4, 256, 64, 64]⟩ : Shape).Idx → ℝ) : Fin 4 → Fin 256 → Fin 4096 → ℝ :=
  fun b c n => xa (ix4 b c (tokRow n) (tokCol n))
def toW {a b : ℕ} (wa : (⟨2, ![a, b]⟩ : Shape).Idx → ℝ) : Fin a → Fin b → ℝ := fun f c => wa (ix2 f c)
def toB {a : ℕ} (ba : (⟨1, ![a]⟩ : Shape).Idx → ℝ) : Fin a → ℝ := fun f => ba (ix1 f)

def GrAt (xa : (⟨4, ![4, 256, 64, 64]⟩ : Shape).Idx → ℝ) (wa : (⟨2, ![768, 256]⟩ : Shape).Idx → ℝ) (ba : (⟨1, ![768]⟩ : Shape).Idx → ℝ)
    (woa : (⟨2, ![256, 256]⟩ : Shape).Idx → ℝ) (boa : (⟨1, ![256]⟩ : Shape).Idx → ℝ) (b : Fin 4) (e : Fin 256) (h w : Fin 64) : ℝ :=
  Gr (toX xa) (toW wa) (toB ba) (toW woa) (toB boa) b e (tokOf h w)

end Cert.Attn

end
-- ==== Proof.IdealValue.ProjAt.lean ====
import proofs.«406710_j33887291965459_3_alg».proof.Proof.IdealFrame.Steps
import proofs.«406710_j33887291965459_3_alg».proof.Proof.Spec
import proofs.«406710_j33887291965459_3_alg».proof.Proof.OnlineSoftmax
import proofs.«406710_j33887291965459_3_alg».proof.Proof.LibVecRows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Val

open Cert.KernelIdeal Cert.KernelIdeal.Gen Cert.KernelIdeal.Body
open Idealize.ShloMosaic Idealize.ShloMosaic.ValueIdx

open Cert.Attn

def keyTok (t : Fin cfg0.N) (j : Fin 1024) : Fin 4096 := ⟨1024 * (t.val % 4) + j.val, by have := j.isLt; have : t.val % 4 < 4 := Nat.mod_lt _ (by decide); omega⟩
def qryTok (t : Fin cfg0.N) (r : Fin 1024) : Fin 4096 := ⟨1024 * ((t.val / 4) % 4) + r.val, by have := r.isLt; have : (t.val / 4) % 4 < 4 := Nat.mod_lt _ (by decide); omega⟩

theorem lhs_proj_0 (i : S256x1024.Idx) (q : dot_S256x256_S256x1024_S256x1024_1_0_0_1_n_n.contr.Idx) :
    (dot_S256x256_S256x1024_S256x1024_1_0_0_1_n_n.lhsIdx i q 0).val = (i 0).val := by
  unfold DotDims.lhsIdx
  rw [dif_neg (show ¬(0 : Fin S256x256.rank) ∈ dot_S256x256_S256x1024_S256x1024_1_0_0_1_n_n.lhsBatch by decide), dif_pos (show (0 : Fin S256x256.rank) ∈ dot_S256x256_S256x1024_S256x1024_1_0_0_1_n_n.lhsNonContracting by decide)]
  rfl
theorem lhs_proj_1 (i : S256x1024.Idx) (q : dot_S256x256_S256x1024_S256x1024_1_0_0_1_n_n.contr.Idx) :
    (dot_S256x256_S256x1024_S256x1024_1_0_0_1_n_n.lhsIdx i q 1).val = (q ⟨0, by decide⟩).val :=
  dot_S256x256_S256x1024_S256x1024_1_0_0_1_n_n.lhsIdx_val_of_single rfl i q
theorem rhs_proj_0 (i : S256x1024.Idx) (q : dot_S256x256_S256x1024_S256x1024_1_0_0_1_n_n.contr.Idx) :
    (dot_S256x256_S256x1024_S256x1024_1_0_0_1_n_n.rhsIdx i q 0).val = (q ⟨0, by decide⟩).val :=
  dot_S256x256_S256x1024_S256x1024_1_0_0_1_n_n.rhsIdx_val_of_single rfl i q
theorem rhs_proj_1 (i : S256x1024.Idx) (q : dot_S256x256_S256x1024_S256x1024_1_0_0_1_n_n.contr.Idx) :
    (dot_S256x256_S256x1024_S256x1024_1_0_0_1_n_n.rhsIdx i q 1).val = (i 1).val := by
  unfold DotDims.rhsIdx
  rw [dif_neg (show ¬(1 : Fin S256x1024.rank) ∈ dot_S256x256_S256x1024_S256x1024_1_0_0_1_n_n.rhsBatch by decide), dif_pos (show (1 : Fin S256x1024.rank) ∈ dot_S256x256_S256x1024_S256x1024_1_0_0_1_n_n.rhsNonContracting by decide)]
  rfl

theorem matmul_proj_apply (w : FVec Ideal S256x256 .bf16) (x : FVec Ideal S256x1024 .bf16) (e : Fin 256) (j : Fin 1024) :
    matmul (F := Ideal) dot_S256x256_S256x1024_S256x1024_1_0_0_1_n_n none w x (constant S256x1024 .f32 0x00000000#32) (ix2 e j)
      = ∑ c : Fin 256, w (ix2 e c) * x (ix2 c j) := by
  simp only [matmul]
  rw [Ideal.matmul_constant_zero_apply, ← Equiv.sum_comp (ValueIdx.contrEquiv1 dot_S256x256_S256x1024_S256x1024_1_0_0_1_n_n 256 rfl rfl).symm]
  refine Finset.sum_congr rfl fun k _ => ?_
  have hk := ValueIdx.contrEquiv1_symm_val dot_S256x256_S256x1024_S256x1024_1_0_0_1_n_n 256 rfl rfl k
  have el : dot_S256x256_S256x1024_S256x1024_1_0_0_1_n_n.lhsIdx (ix2 e j) ((ValueIdx.contrEquiv1 dot_S256x256_S256x1024_S256x1024_1_0_0_1_n_n 256 rfl rfl).symm k) = ix2 e k := funext fun a => Fin.ext (by
    match a with
    | ⟨0, _⟩ => exact lhs_proj_0 _ _
    | ⟨1, _⟩ => exact (lhs_proj_1 _ _).trans hk)
  have er : dot_S256x256_S256x1024_S256x1024_1_0_0_1_n_n.rhsIdx (ix2 e j) ((ValueIdx.contrEquiv1 dot_S256x256_S256x1024_S256x1024_1_0_0_1_n_n 256 rfl rfl).symm k) = ix2 k j := funext fun a => Fin.ext (by
    match a with
    | ⟨0, _⟩ => exact (rhs_proj_0 _ _).trans hk
    | ⟨1, _⟩ => exact rhs_proj_1 _ _)
  rw [el, er]

theorem pay4_apply (v49 : Vec Ideal S1x256x1024 .f32) (c : Fin 256) (j : Fin 1024) :
    k0_pay4 (F := Ideal) v49 (ix2 c j) = v49 (ix3 (0 : Fin 1) c j) := by
  unfold k0_pay4
  exact shapeCast_1ab_ab_apply v49 shapeCasts_S1x256x1024_S256x1024 c j

theorem proj_core_apply (v49 : Vec Ideal S1x256x1024 .f32) (v52 : Vec Ideal S256x256 .f32) (v54 : Vec Ideal S256x1 .f32) (e : Fin 256) (j : Fin 1024) :
    addf (F := Ideal) (matmul (F := Ideal) dot_S256x256_S256x1024_S256x1024_1_0_0_1_n_n none (truncf .bf16 v52 bitsLt_bf16_f32) (k0_pay4 v49) (constant S256x1024 .f32 0x00000000#32))
        (broadcastTo S256x1024 (shapeCast S256x1 v54 shapeCasts_S256x1_S256x1) broadcasts_S256x1_S256x1024) (ix2 e j)
      = (∑ c : Fin 256, v52 (ix2 e c) * v49 (ix3 (0 : Fin 1) c j)) + v54 (ix2 e (0 : Fin 1)) := by
  refine congrArg₂ (· + ·) ((matmul_proj_apply _ _ e j).trans (Finset.sum_congr rfl fun c _ => congrArg (v52 (ix2 e c) * ·) (pay4_apply v49 c j))) ?_
  refine (Cert.LibVecRows.broadcastTo_col_apply _ broadcasts_S256x1_S256x1024 e j).trans ?_
  exact congrFun (shapeCast_self v54 shapeCasts_S256x1_S256x1) _

theorem pay5_apply (v49 : Vec Ideal S1x256x1024 .f32) (v52 : Vec Ideal S256x256 .f32) (v54 : Vec Ideal S256x1 .f32) (e : Fin 256) (j : Fin 1024) :
    k0_pay5 (F := Ideal) v49 v52 v54 (ix2 e j)
      = (∑ c : Fin 256, v52 (ix2 e c) * v49 (ix3 (0 : Fin 1) c j)) + v54 (ix2 e (0 : Fin 1)) := by
  unfold k0_pay5
  refine (congrFun (shapeCast_self _ shapeCasts_S256x1024_S256x1024) (ix2 e j)).trans ?_
  exact proj_core_apply v49 v52 v54 e j

theorem pay6_apply (v49 : Vec Ideal S1x256x1024 .f32) (v56 : Vec Ideal S256x256 .f32) (v58 : Vec Ideal S256x1 .f32) (e : Fin 256) (j : Fin 1024) :
    k0_pay6 (F := Ideal) v49 v56 v58 (ix2 e j)
      = (∑ c : Fin 256, v56 (ix2 e c) * v49 (ix3 (0 : Fin 1) c j)) + v58 (ix2 e (0 : Fin 1)) := by
  unfold k0_pay6
  refine (congrFun (shapeCast_self _ shapeCasts_S256x1024_S256x1024) (ix2 e j)).trans ?_
  exact proj_core_apply v49 v56 v58 e j

theorem ofBits_sixteenth : Ideal.ofBits .f32 0x3D800000#32 = (((1 / 16 : ℝ) : ℝ) : EReal) := by
  simp [Ideal.ofBits, Ideal.ieee, -EReal.coe_mul]; norm_num

theorem pay7_apply (v49 : Vec Ideal S1x256x1024 .f32) (v52 : Vec Ideal S256x256 .f32) (v54 : Vec Ideal S256x1 .f32) (e : Fin 256) (j : Fin 1024) :
    k0_pay7 (F := Ideal) v49 v52 v54 (ix2 e j)
      = ((∑ c : Fin 256, v52 (ix2 e c) * v49 (ix3 (0 : Fin 1) c j)) + v54 (ix2 e (0 : Fin 1))) * (((1 / 16 : ℝ) : ℝ) : EReal) := by
  unfold k0_pay7
  refine (congrFun (shapeCast_self _ shapeCasts_S256x1024_S256x1024) (ix2 e j)).trans ?_
  refine congrArg₂ (· * ·) ?_ ofBits_sixteenth
  exact proj_core_apply v49 v52 v54 e j

theorem ld_unit_at {S : Shape} {e : EltTy} {Val : EltTy → Type} {off off' size : Fin S.rank → Nat} (h : off = off')
    (p : ∀ a, off a + size a ≤ S.size a) (s : S.Idx → Val e) (x : (Rect.unit (s := S) off size p).shape.Idx) (y : S.Idx)
    (hy : ∀ a, (y a).val = off' a + (x a).val) :
    View.ld s (Rect.unit (s := S) off size p) x = s y := by
  subst h
  refine congrArg s (funext fun a => Fin.ext ?_)
  rw [hy a]
  show off a + 1 * (x a).val = off a + (x a).val
  rw [Nat.one_mul]

theorem wQ_apply (x1 : Vec Ideal S768x256 .f32) (e c : Fin 256) : wQ (F := Ideal) x1 (ix2 e c) = x1 (ix2 (qF e) c) := by
  unfold wQ
  refine ld_unit_at rfl _ x1 (ix2 e c) (ix2 (qF e) c) fun a => ?_
  match a with
  | ⟨0, _⟩ => exact (Nat.zero_add _).symm
  | ⟨1, _⟩ => exact (Nat.zero_add _).symm
theorem wK_apply (x1 : Vec Ideal S768x256 .f32) (e c : Fin 256) : wK (F := Ideal) x1 (ix2 e c) = x1 (ix2 (kF e) c) := by
  unfold wK
  refine ld_unit_at rfl _ x1 (ix2 e c) (ix2 (kF e) c) fun a => ?_
  match a with
  | ⟨0, _⟩ => rfl
  | ⟨1, _⟩ => exact (Nat.zero_add _).symm
theorem wV_apply (x1 : Vec Ideal S768x256 .f32) (e c : Fin 256) : wV (F := Ideal) x1 (ix2 e c) = x1 (ix2 (vF e) c) := by
  unfold wV
  refine ld_unit_at rfl _ x1 (ix2 e c) (ix2 (vF e) c) fun a => ?_
  match a with
  | ⟨0, _⟩ => rfl
  | ⟨1, _⟩ => exact (Nat.zero_add _).symm
theorem bQ_apply (x2 : Vec Ideal S768x1 .f32) (e : Fin 256) : bQ (F := Ideal) x2 (ix2 e (0 : Fin 1)) = x2 (ix2 (qF e) (0 : Fin 1)) := by
  unfold bQ
  refine ld_unit_at rfl _ x2 (ix2 e (0 : Fin 1)) (ix2 (qF e) (0 : Fin 1)) fun a => ?_
  match a with
  | ⟨0, _⟩ => exact (Nat.zero_add _).symm
  | ⟨1, _⟩ => rfl
theorem bK_apply (x2 : Vec Ideal S768x1 .f32) (e : Fin 256) : bK (F := Ideal) x2 (ix2 e (0 : Fin 1)) = x2 (ix2 (kF e) (0 : Fin 1)) := by
  unfold bK
  refine ld_unit_at rfl _ x2 (ix2 e (0 : Fin 1)) (ix2 (kF e) (0 : Fin 1)) fun a => ?_
  match a with
  | ⟨0, _⟩ => rfl
  | ⟨1, _⟩ => rfl
theorem bV_apply (x2 : Vec Ideal S768x1 .f32) (e : Fin 256) : bV (F := Ideal) x2 (ix2 e (0 : Fin 1)) = x2 (ix2 (vF e) (0 : Fin 1)) := by
  unfold bV
  refine ld_unit_at rfl _ x2 (ix2 e (0 : Fin 1)) (ix2 (vF e) (0 : Fin 1)) fun a => ?_
  match a with
  | ⟨0, _⟩ => rfl
  | ⟨1, _⟩ => rfl

theorem off1_eq : ∀ t : Fin cfg0.N, k0_off1 (grid0.coords t) = ![0, 0, 1024 * (t.val % 4)] :=
  (by decide +kernel : ∀ t : Fin grid0.N, k0_off1 (grid0.coords t) = ![0, 0, 1024 * (t.val % 4)])
theorem off3_eq : ∀ t : Fin cfg0.N, k0_off3 (grid0.coords t) = ![0, 0, 1024 * ((t.val / 4) % 4)] :=
  (by decide +kernel : ∀ t : Fin grid0.N, k0_off3 (grid0.coords t) = ![0, 0, 1024 * ((t.val / 4) % 4)])

theorem xKt_apply (t : Fin cfg0.N) (h : condKV (grid0.coords t)) (x0 : Vec Ideal S1x256x4096 .f32) (c : Fin 256) (j : Fin 1024) :
    xKt (F := Ideal) (grid0.coords t) h x0 (ix3 (0 : Fin 1) c j) = x0 (ix3 (0 : Fin 1) c (keyTok t j)) := by
  unfold xKt
  refine ld_unit_at (off1_eq t) _ x0 (ix3 (0 : Fin 1) c j) (ix3 (0 : Fin 1) c (keyTok t j)) fun a => ?_
  match a with
  | ⟨0, _⟩ => rfl
  | ⟨1, _⟩ => exact (Nat.zero_add _).symm
  | ⟨2, _⟩ => rfl
theorem xQt_apply (t : Fin cfg0.N) (h : condQ (grid0.coords t)) (x0 : Vec Ideal S1x256x4096 .f32) (c : Fin 256) (r : Fin 1024) :
    xQt (F := Ideal) (grid0.coords t) h x0 (ix3 (0 : Fin 1) c r) = x0 (ix3 (0 : Fin 1) c (qryTok t r)) := by
  unfold xQt
  refine ld_unit_at (off3_eq t) _ x0 (ix3 (0 : Fin 1) c r) (ix3 (0 : Fin 1) c (qryTok t r)) fun a => ?_
  match a with
  | ⟨0, _⟩ => rfl
  | ⟨1, _⟩ => exact (Nat.zero_add _).symm
  | ⟨2, _⟩ => rfl

section
variable (t : Fin cfg0.N) (x0 : Vec Ideal S1x256x4096 .f32) (x1 : Vec Ideal S768x256 .f32) (x2 : Vec Ideal S768x1 .f32)
  (X : Fin 256 → Fin 4096 → ℝ) (W : Fin 768 → Fin 256 → ℝ) (bw : Fin 768 → ℝ)
  (hx0 : ∀ (z : Fin 1) (ch : Fin 256) (n : Fin 4096), x0 (ix3 z ch n) = ((X ch n : ℝ) : EReal))
  (hx1 : ∀ (f : Fin 768) (ch : Fin 256), x1 (ix2 f ch) = ((W f ch : ℝ) : EReal))
  (hx2 : ∀ (f : Fin 768) (z : Fin 1), x2 (ix2 f z) = ((bw f : ℝ) : EReal))

include hx0 hx1 hx2

theorem newK_apply (h : condKV (grid0.coords t)) (e : Fin 256) (j : Fin 1024) :
    newK (F := Ideal) (grid0.coords t) h x0 x1 x2 (ix2 e j)
      = (((∑ c : Fin 256, X c (keyTok t j) * W (kF e) c) + bw (kF e) : ℝ) : EReal) := by
  unfold newK
  refine (pay5_apply _ _ _ e j).trans ?_
  rw [EReal.coe_add, Cert.Attn.coe_sum]
  refine congrArg₂ (· + ·) (Finset.sum_congr rfl fun c _ => ?_) ?_
  · rw [wK_apply, xKt_apply, hx1, hx0, ← EReal.coe_mul, mul_comm]
  · rw [bK_apply, hx2]

theorem newV_apply (h : condKV (grid0.coords t)) (e : Fin 256) (j : Fin 1024) :
    newV (F := Ideal) (grid0.coords t) h x0 x1 x2 (ix2 e j)
      = (((∑ c : Fin 256, X c (keyTok t j) * W (vF e) c) + bw (vF e) : ℝ) : EReal) := by
  unfold newV
  refine (pay6_apply _ _ _ e j).trans ?_
  rw [EReal.coe_add, Cert.Attn.coe_sum]
  refine congrArg₂ (· + ·) (Finset.sum_congr rfl fun c _ => ?_) ?_
  · rw [wV_apply, xKt_apply, hx1, hx0, ← EReal.coe_mul, mul_comm]
  · rw [bV_apply, hx2]

theorem newQ_apply (h : condQ (grid0.coords t)) (e : Fin 256) (r : Fin 1024) :
    newQ (F := Ideal) (grid0.coords t) h x0 x1 x2 (ix2 e r)
      = ((((∑ c : Fin 256, X c (qryTok t r) * W (qF e) c) + bw (qF e)) * (1 / 16) : ℝ) : EReal) := by
  unfold newQ
  refine (pay7_apply _ _ _ e r).trans ?_
  rw [EReal.coe_mul, EReal.coe_add, Cert.Attn.coe_sum]
  refine congrArg₂ (· * ·) (congrArg₂ (· + ·) (Finset.sum_congr rfl fun c _ => ?_) ?_) rfl
  · rw [wQ_apply, xQt_apply, hx1, hx0, ← EReal.coe_mul, mul_comm]
  · rw [bQ_apply, hx2]
end

end Cert.KernelIdeal.Val

end
-- ==== Proof.IdealValue.Batch.lean ====
import proofs.«406710_j33887291965459_3_alg».proof.Proof.IdealFrame.Base
import Idealize.ShloMosaic.Lib.ValueIdx

noncomputable section

namespace Cert.KernelIdeal.Val

open Cert.KernelIdeal Cert.KernelIdeal.Gen Cert.KernelIdeal.Body
open Idealize.ShloMosaic Idealize.ShloMosaic.ValueIdx

def batchOf (t : Fin cfg0.N) : Fin 4 := ⟨t.val / 16, by have := t.isLt; have : cfg0.N = 64 := N_0; omega⟩

end Cert.KernelIdeal.Val

end
-- ==== Proof.IdealValue.RowReal.lean ====
import proofs.«406710_j33887291965459_3_alg».proof.Proof.IdealValue.RowState
import proofs.«406710_j33887291965459_3_alg».proof.Proof.IdealValue.ProjAt
import proofs.«406710_j33887291965459_3_alg».proof.Proof.IdealValue.Batch
import proofs.«406710_j33887291965459_3_alg».proof.Proof.Spec

noncomputable section

namespace Cert.KernelIdeal.Val

open Cert.KernelIdeal Cert.KernelIdeal.Gen Cert.KernelIdeal.Body
open Idealize.ShloMosaic Idealize.ShloMosaic.ValueIdx

open Cert.Attn

def tokAt (k : ℕ) (hk : k < 4) (j : Fin 1024) : Fin 4096 := ⟨1024 * k + j.val, by have := j.isLt; omega⟩

theorem batchOf_kvPt_rowAt (p : Fin cfg0.N) (hp : condQ (grid0.coords p)) (k : ℕ) (hk : k < 4) :
    batchOf (kvPt (rowAt p hp k hk)) = batchOf p := by
  have hp4 := (hcondQ p).mp hp
  refine Fin.ext ?_
  show (16 * ((p.val + k) / 16) + (p.val + k) % 4) / 16 = p.val / 16
  omega
theorem keyTok_kvPt_rowAt (p : Fin cfg0.N) (hp : condQ (grid0.coords p)) (k : ℕ) (hk : k < 4) (j : Fin 1024) :
    keyTok (kvPt (rowAt p hp k hk)) j = tokAt k hk j := by
  have hp4 := (hcondQ p).mp hp
  refine Fin.ext ?_
  show 1024 * ((16 * ((p.val + k) / 16) + (p.val + k) % 4) % 4) + j.val = 1024 * k + j.val
  omega

section
variable (m : (ℓ : Loc nD τ sig) → Buf (Elt Ideal) ℓ) (c : Dev nD)
  (xa : S4x256x64x64.Idx → ℝ) (wa : S768x256.Idx → ℝ) (ba : S768.Idx → ℝ)
  (hB0 : ∀ (t : Fin cfg0.N) (z : Fin 1) (ch : Fin 256) (n : Fin 4096), B0 (F := Ideal) m c t (ix3 z ch n) = ((toX xa (batchOf t) ch n : ℝ) : EReal))
  (hB1 : ∀ (t : Fin cfg0.N) (f : Fin 768) (ch : Fin 256), B1 (F := Ideal) m c t (ix2 f ch) = ((toW wa f ch : ℝ) : EReal))
  (hB2 : ∀ (t : Fin cfg0.N) (f : Fin 768) (z : Fin 1), B2 (F := Ideal) m c t (ix2 f z) = ((toB ba f : ℝ) : EReal))

include hB0 hB1 hB2

theorem rowQ_apply (p : Fin cfg0.N) (hp : condQ (grid0.coords p)) (e : Fin 256) (r : Fin 1024) :
    rowQ (F := Ideal) m c p hp (ix2 e r)
      = ((proj (toX xa) (toW wa) (toB ba) (batchOf p) (qryTok p r) (qF e) * (1 / 16) : ℝ) : EReal) := by
  unfold rowQ proj
  exact newQ_apply p _ _ _ (toX xa (batchOf p)) (toW wa) (toB ba) (hB0 p) (hB1 p) (hB2 p) hp e r

theorem kvK_apply (q : Fin cfg0.N) (hq : condKV (grid0.coords q)) (e : Fin 256) (j : Fin 1024) :
    kvK (F := Ideal) m c q hq (ix2 e j) = ((proj (toX xa) (toW wa) (toB ba) (batchOf q) (keyTok q j) (kF e) : ℝ) : EReal) := by
  unfold kvK proj
  exact newK_apply q _ _ _ (toX xa (batchOf q)) (toW wa) (toB ba) (hB0 q) (hB1 q) (hB2 q) hq e j

theorem kvV_apply (q : Fin cfg0.N) (hq : condKV (grid0.coords q)) (e : Fin 256) (j : Fin 1024) :
    kvV (F := Ideal) m c q hq (ix2 e j) = ((proj (toX xa) (toW wa) (toB ba) (batchOf q) (keyTok q j) (vF e) : ℝ) : EReal) := by
  unfold kvV proj
  exact newV_apply q _ _ _ (toX xa (batchOf q)) (toW wa) (toB ba) (hB0 q) (hB1 q) (hB2 q) hq e j

theorem sRow_apply (p : Fin cfg0.N) (hp : condQ (grid0.coords p)) (r : Fin 1024) (k : ℕ) (hk : k < 4) (j : Fin 1024) :
    sRow m c p hp r k j = ((scoreR (toX xa) (toW wa) (toB ba) (batchOf p) (qryTok p r) (tokAt k hk j) : ℝ) : EReal) := by
  show score (rowQ (F := Ideal) m c p hp) (Krow m c p hp k) r j = _
  unfold score Krow
  rw [dif_pos hk]
  have hterm : ∀ e : Fin 256, rowQ (F := Ideal) m c p hp (ix2 e r) * kvK (F := Ideal) m c (kvPt (rowAt p hp k hk)) (kvPt_cond _) (ix2 e j)
      = ((proj (toX xa) (toW wa) (toB ba) (batchOf p) (qryTok p r) (qF e) * (1 / 16)
          * proj (toX xa) (toW wa) (toB ba) (batchOf p) (tokAt k hk j) (kF e) : ℝ) : EReal) := fun e => by
    rw [rowQ_apply m c xa wa ba hB0 hB1 hB2 p hp e r, kvK_apply m c xa wa ba hB0 hB1 hB2 _ _ e j,
      batchOf_kvPt_rowAt p hp k hk, keyTok_kvPt_rowAt p hp k hk j, ← EReal.coe_mul]
  rw [Finset.sum_congr rfl fun e _ => hterm e, ← Cert.Attn.coe_sum]
  refine congrArg (fun x : ℝ => (x : EReal)) ?_
  unfold scoreR
  rw [Finset.sum_div]
  refine Finset.sum_congr rfl fun e _ => ?_
  ring

theorem vRow_apply (p : Fin cfg0.N) (hp : condQ (grid0.coords p)) (f : Fin 256) (k : ℕ) (hk : k < 4) (j : Fin 1024) :
    vRow m c p hp f k j = ((proj (toX xa) (toW wa) (toB ba) (batchOf p) (tokAt k hk j) (vF f) : ℝ) : EReal) := by
  show Vrow m c p hp k (ix2 f j) = _
  unfold Vrow
  rw [dif_pos hk, kvV_apply m c xa wa ba hB0 hB1 hB2 _ _ f j, batchOf_kvPt_rowAt p hp k hk, keyTok_kvPt_rowAt p hp k hk j]
end

end Cert.KernelIdeal.Val

end
-- ==== Proof.IdealValue.OutBlock.lean ====
import proofs.«406710_j33887291965459_3_alg».proof.Proof.IdealValue.RowReal
import proofs.«406710_j33887291965459_3_alg».proof.Proof.IdealValue.OutAt
import proofs.«406710_j33887291965459_3_alg».proof.Proof.OnlineSoftmax
import proofs.«406710_j33887291965459_3_alg».proof.Proof.Spec

noncomputable section

namespace Cert.KernelIdeal.Val

open Cert.KernelIdeal Cert.KernelIdeal.Gen Cert.KernelIdeal.Body
open Idealize.ShloMosaic Idealize.ShloMosaic.ValueIdx

open Cert.Attn

theorem osRun_congr {κ : Type} [Fintype κ] (s s' v v' : ℕ → κ → EReal) :
    ∀ T : ℕ, (∀ k, k < T → s k = s' k) → (∀ k, k < T → v k = v' k) → osRun s v T = osRun s' v' T
  | 0, _, _ => rfl
  | T + 1, hs, hv => by
    show osStep (osRun s v T) (s T) (v T) = osStep (osRun s' v' T) (s' T) (v' T)
    rw [osRun_congr s s' v v' T (fun k hk => hs k (by omega)) (fun k hk => hv k (by omega)), hs T (by omega),
      hv T (by omega)]

def tokEquiv : Fin 4096 ≃ Fin 4 × Fin 1024 where
  toFun n := (⟨n.val / 1024, by have := n.isLt; omega⟩, ⟨n.val % 1024, Nat.mod_lt _ (by decide)⟩)
  invFun q := ⟨1024 * q.1.val + q.2.val, by have := q.1.isLt; have := q.2.isLt; omega⟩
  left_inv n := Fin.ext (by show 1024 * (n.val / 1024) + n.val % 1024 = n.val; omega)
  right_inv q := by
    have h1 := q.1.isLt
    have h2 := q.2.isLt
    refine Prod.ext (Fin.ext ?_) (Fin.ext ?_)
    · show (1024 * q.1.val + q.2.val) / 1024 = q.1.val
      omega
    · show (1024 * q.1.val + q.2.val) % 1024 = q.2.val
      omega

theorem tokAt_tokEquiv (n : Fin 4096) : tokAt (tokEquiv n).1.val (tokEquiv n).1.isLt (tokEquiv n).2 = n :=
  Fin.ext (by show 1024 * (n.val / 1024) + n.val % 1024 = n.val; omega)

section Real
variable (x : Fin 4 → Fin 256 → Fin 4096 → ℝ) (W : Fin 768 → Fin 256 → ℝ) (bw : Fin 768 → ℝ) (b : Fin 4)

def sReal (i : Fin 4096) : ℕ → Fin 1024 → ℝ :=
  fun k j => if h : k < 4 then scoreR x W bw b i (tokAt k h j) else 0
def vReal (f : Fin 256) : ℕ → Fin 1024 → ℝ :=
  fun k j => if h : k < 4 then proj x W bw b (tokAt k h j) (vF f) else 0

theorem sReal_tok (i : Fin 4096) (n : Fin 4096) :
    sReal x W bw b i (tokEquiv n).1.val (tokEquiv n).2 = scoreR x W bw b i n := by
  unfold sReal
  rw [dif_pos (tokEquiv n).1.isLt, tokAt_tokEquiv]
theorem vReal_tok (f : Fin 256) (n : Fin 4096) :
    vReal x W bw b f (tokEquiv n).1.val (tokEquiv n).2 = proj x W bw b n (vF f) := by
  unfold vReal
  rw [dif_pos (tokEquiv n).1.isLt, tokAt_tokEquiv]

theorem attend_of_tiles (i : Fin 4096) (f : Fin 256) :
    ((∑ q : Fin 4 × Fin 1024, Real.exp (sReal x W bw b i q.1.val q.2 - gmax 4 (by norm_num) (sReal x W bw b i))
          * vReal x W bw b f q.1.val q.2)
        / (∑ q : Fin 4 × Fin 1024, Real.exp (sReal x W bw b i q.1.val q.2 - gmax 4 (by norm_num) (sReal x W bw b i))))
      = attend x W bw b i f := by
  rw [quotient_reindex 4 (by norm_num) tokEquiv (sReal x W bw b i) (vReal x W bw b f)]
  unfold attend rowMax
  simp only [sReal_tok, vReal_tok]
end Real

section Row
variable (m : (ℓ : Loc nD τ sig) → Buf (Elt Ideal) ℓ) (c : Dev nD)
  (xa : S4x256x64x64.Idx → ℝ) (wa : S768x256.Idx → ℝ) (ba : S768.Idx → ℝ)
  (hB0 : ∀ (t : Fin cfg0.N) (z : Fin 1) (ch : Fin 256) (n : Fin 4096), B0 (F := Ideal) m c t (ix3 z ch n) = ((toX xa (batchOf t) ch n : ℝ) : EReal))
  (hB1 : ∀ (t : Fin cfg0.N) (f : Fin 768) (ch : Fin 256), B1 (F := Ideal) m c t (ix2 f ch) = ((toW wa f ch : ℝ) : EReal))
  (hB2 : ∀ (t : Fin cfg0.N) (f : Fin 768) (z : Fin 1), B2 (F := Ideal) m c t (ix2 f z) = ((toB ba f : ℝ) : EReal))

include hB0 hB1 hB2

theorem sRow_real (p : Fin cfg0.N) (hp : condQ (grid0.coords p)) (r : Fin 1024) (k : ℕ) (hk : k < 4) :
    sRow m c p hp r k
      = fun j => ((sReal (toX xa) (toW wa) (toB ba) (batchOf p) (qryTok p r) k j : ℝ) : EReal) := by
  funext j
  rw [sRow_apply m c xa wa ba hB0 hB1 hB2 p hp r k hk j]
  unfold sReal
  rw [dif_pos hk]
theorem vRow_real (p : Fin cfg0.N) (hp : condQ (grid0.coords p)) (f : Fin 256) (k : ℕ) (hk : k < 4) :
    vRow m c p hp f k
      = fun j => ((vReal (toX xa) (toW wa) (toB ba) (batchOf p) f k j : ℝ) : EReal) := by
  funext j
  rw [vRow_apply m c xa wa ba hB0 hB1 hB2 p hp f k hk j]
  unfold vReal
  rw [dif_pos hk]

theorem row_quotient (p : Fin cfg0.N) (hp : condQ (grid0.coords p)) (n : ℕ) (hn : n < cfg0.N) (hnp : n = p.val + 3)
    (r : Fin 1024) (f : Fin 256) (z : Fin 1) :
    Ideal.div ((stAt (F := Ideal) m c (n + 1) hn).A (ix2 r f))
        (max ((stAt (F := Ideal) m c (n + 1) hn).L (ix2 r z)) (((1 / 1000000000000000000000000000000 : ℝ) : ℝ) : EReal))
      = ((attend (toX xa) (toW wa) (toB ba) (batchOf p) (qryTok p r) f : ℝ) : EReal) := by
  have hst := rowState m c p hp 3 n hn hnp (by norm_num) r f z
  have hL : (stAt (F := Ideal) m c (n + 1) hn).L (ix2 r z) = (osRun (sRow m c p hp r) (vRow m c p hp f) 4).2.1 :=
    congrArg (fun q => q.2.1) hst
  have hA : (stAt (F := Ideal) m c (n + 1) hn).A (ix2 r f) = (osRun (sRow m c p hp r) (vRow m c p hp f) 4).2.2 :=
    congrArg (fun q => q.2.2) hst
  rw [hA, hL,
    osRun_congr (sRow m c p hp r)
      (fun k j => ((sReal (toX xa) (toW wa) (toB ba) (batchOf p) (qryTok p r) k j : ℝ) : EReal))
      (vRow m c p hp f) (fun k j => ((vReal (toX xa) (toW wa) (toB ba) (batchOf p) f k j : ℝ) : EReal)) 4
      (fun k hk => sRow_real m c xa wa ba hB0 hB1 hB2 p hp r k hk)
      (fun k hk => vRow_real m c xa wa ba hB0 hB1 hB2 p hp f k hk),
    osRun_final 4 (by norm_num) (sReal (toX xa) (toW wa) (toB ba) (batchOf p) (qryTok p r))
      (vReal (toX xa) (toW wa) (toB ba) (batchOf p) f) (1 / 1000000000000000000000000000000 : ℝ) (by norm_num) (by norm_num),
    attend_of_tiles]
end Row

section Block
variable (m : (ℓ : Loc nD τ sig) → Buf (Elt Ideal) ℓ) (c : Dev nD)

theorem outAt_eq (t : Fin cfg0.N) (hO : condO (grid0.coords t)) (z : Fin 1) (e : Fin 256) (r : Fin 1024) :
    outAt (F := Ideal) m c t (ix3 z e r)
      = xOt (F := Ideal) (grid0.coords t) hO (B0 (F := Ideal) m c t) (ix3 z e r)
        + ((∑ f : Fin 256, B3 (F := Ideal) m c t (ix2 e f)
              * Ideal.div ((stAt (F := Ideal) m c (t.val + 1) t.isLt).A (ix2 r f))
                  (max ((stAt (F := Ideal) m c (t.val + 1) t.isLt).L (ix2 r z)) (((1 / 1000000000000000000000000000000 : ℝ) : ℝ) : EReal)))
            + B4 (F := Ideal) m c t (ix2 e z)) := by
  rw [stAt_succ]
  unfold outAt nO
  rw [dif_pos hO]
  exact outB_apply _ _ _ _ _ z z e r
end Block

section
variable (m : (ℓ : Loc nD τ sig) → Buf (Elt Ideal) ℓ) (c : Dev nD)
  (xa : S4x256x64x64.Idx → ℝ) (wa : S768x256.Idx → ℝ) (ba : S768.Idx → ℝ) (woa : S256x256.Idx → ℝ) (boa : S256.Idx → ℝ)
  (hB0 : ∀ (t : Fin cfg0.N) (z : Fin 1) (ch : Fin 256) (n : Fin 4096), B0 (F := Ideal) m c t (ix3 z ch n) = ((toX xa (batchOf t) ch n : ℝ) : EReal))
  (hB1 : ∀ (t : Fin cfg0.N) (f : Fin 768) (ch : Fin 256), B1 (F := Ideal) m c t (ix2 f ch) = ((toW wa f ch : ℝ) : EReal))
  (hB2 : ∀ (t : Fin cfg0.N) (f : Fin 768) (z : Fin 1), B2 (F := Ideal) m c t (ix2 f z) = ((toB ba f : ℝ) : EReal))
  (hB3 : ∀ (t : Fin cfg0.N) (e f : Fin 256), B3 (F := Ideal) m c t (ix2 e f) = ((toW woa e f : ℝ) : EReal))
  (hB4 : ∀ (t : Fin cfg0.N) (e : Fin 256) (z : Fin 1), B4 (F := Ideal) m c t (ix2 e z) = ((toB boa e : ℝ) : EReal))

include hB0 hB1 hB2 hB3 hB4

theorem outAt_apply (t : Fin cfg0.N) (hO : condO (grid0.coords t)) (z : Fin 1) (e : Fin 256) (r : Fin 1024) :
    outAt (F := Ideal) m c t (ix3 z e r)
      = ((Gr (toX xa) (toW wa) (toB ba) (toW woa) (toB boa) (batchOf t) e (qryTok t r) : ℝ) : EReal) := by
  have h3 := (hcondO t).mp hO
  have hnp : t.val = (rowPt t).val + 3 := by
    show t.val = 4 * (t.val / 4) + 3
    omega
  have hb : batchOf (rowPt t) = batchOf t := Fin.ext (by show 4 * (t.val / 4) / 16 = t.val / 16; omega)
  have hq : qryTok (rowPt t) r = qryTok t r :=
    Fin.ext (by show 1024 * (4 * (t.val / 4) / 4 % 4) + r.val = 1024 * (t.val / 4 % 4) + r.val; omega)
  have hsum : ∀ f : Fin 256, B3 (F := Ideal) m c t (ix2 e f)
        * Ideal.div ((stAt (F := Ideal) m c (t.val + 1) t.isLt).A (ix2 r f))
            (max ((stAt (F := Ideal) m c (t.val + 1) t.isLt).L (ix2 r z)) (((1 / 1000000000000000000000000000000 : ℝ) : ℝ) : EReal))
      = ((toW woa e f * attend (toX xa) (toW wa) (toB ba) (batchOf t) (qryTok t r) f : ℝ) : EReal) := by
    intro f
    rw [hB3 t e f, row_quotient m c xa wa ba hB0 hB1 hB2 (rowPt t) (rowPt_cond t) t.val t.isLt hnp r f z, hb, hq,
      ← EReal.coe_mul]
  have hx : xOt (F := Ideal) (grid0.coords t) hO (B0 (F := Ideal) m c t) (ix3 z e r)
      = ((toX xa (batchOf t) e (qryTok t r) : ℝ) : EReal) :=
    (xOt_apply t hO (B0 (F := Ideal) m c t) z e r).trans (hB0 t z e (qryTok t r))
  rw [outAt_eq m c t hO z e r, hx, hB4 t e z, Finset.sum_congr rfl (fun f _ => hsum f), ← Cert.Attn.coe_sum,
    ← EReal.coe_add, ← EReal.coe_add]
  refine congrArg Real.toEReal ?_
  unfold Gr
  refine congrArg (fun s => toX xa (batchOf t) e (qryTok t r) + (s + toB boa e)) ?_
  exact Finset.sum_congr rfl fun f _ => mul_comm _ _
end

end Cert.KernelIdeal.Val

end
-- ==== Proof.IdealValue.Blocks.lean ====
import proofs.«406710_j33887291965459_3_alg».proof.Proof.IdealFrame.Frame
import proofs.«406710_j33887291965459_3_alg».proof.Proof.IdealValue.Batch
import proofs.«406710_j33887291965459_3_alg».proof.Proof.Spec
import proofs.«406710_j33887291965459_3_alg».proof.Proof.Gen.Pre_finite_inputs
import proofs.«406710_j33887291965459_3_alg».proof.Defs
import Idealize.ShloMosaic.Lib.ValueIdx
import Idealize.ShloMosaic.Lib.ValueLayout
import Idealize.ShloMosaic.Lib.Pipeline.Value
import Idealize.ShloMosaic.Lib.StableHlo.Run
import Idealize.ShloMosaic.Lib.ReduceAll

noncomputable section

namespace Cert.KernelIdeal.Val

open Cert.KernelIdeal Cert.KernelIdeal.Gen Cert.KernelIdeal.Body
open Idealize.ShloMosaic Idealize.ShloMosaic.ValueIdx

open Idealize.SL.Sem Cert.Attn

instance : Subsingleton Cert.Pre_finite_inputs.S_.Idx := ⟨fun a b => funext fun d => d.elim0⟩

theorem ofBits_inf_f32 : Ideal.ofBits .f32 0x7F800000#32 = (⊤ : EReal) := by simp [Ideal.ofBits, Ideal.ieee]

theorem lt_of_cmp_olt {a b : EReal} (h : Ideal.cmp .olt a b = 1#1) : a < b := by
  unfold Ideal.cmp at h
  by_contra hn
  simp [hn] at h

theorem coe_toReal_of_abs_lt_top {x : EReal} (h : max x (-x) < ⊤) : ((x.toReal : ℝ) : EReal) = x := by
  refine EReal.coe_toReal ?_ ?_
  · rintro rfl; simp at h
  · rintro rfl; simp at h

theorem entry_real {s : Shape} {axes : List (Fin s.rank)} (x : FVec Ideal s .f32)
    (bc : Cert.Pre_finite_inputs.S_.BroadcastsInDim s (![] : Fin 0 → Fin s.rank)) (h : s.ReducesTo axes Cert.Pre_finite_inputs.S_) (hu : 0 < Cert.Pre_finite_inputs.S_.numel)
    (e : Host.reduce IntOp.andi (cmpf .olt (Host.absf x) (broadcastInDim s ![] bc (constant Cert.Pre_finite_inputs.S_ .f32 0x7F800000#32))) (constantI Cert.Pre_finite_inputs.S_ 1 1#1) h hu ix0 = 1#1)
    (i : s.Idx) : (((x i).toReal : ℝ) : EReal) = x i := by
  have hi := Host.reduce_andi_all _ _ h hu ix0 e i
  have hlt : max (x i) (-(x i)) < Ideal.ofBits .f32 0x7F800000#32 := lt_of_cmp_olt hi
  rw [ofBits_inf_f32] at hlt
  exact coe_toReal_of_abs_lt_top hlt

theorem reals_of_pre [Cert.Pre_finite_inputs.Facts] (m : (ℓ : Loc nD τ sig) → Buf (Elt Ideal) ℓ) (hpre : Cert.Pre_KernelIdeal m) (c : Dev nD) :
    ∃ (xa : S4x256x64x64.Idx → ℝ) (wa : S768x256.Idx → ℝ) (ba : S768.Idx → ℝ) (woa : S256x256.Idx → ℝ) (boa : S256.Idx → ℝ),
      m ((c.tc : Thread nD τ).loc main_arg0) = ((fun j : S4x256x64x64.Idx => ((xa j : ℝ) : EReal)) : Buf (Elt Ideal) ((c.tc : Thread nD τ).loc main_arg0))
      ∧ m ((c.tc : Thread nD τ).loc main_arg1) = ((fun j : S768x256.Idx => ((wa j : ℝ) : EReal)) : Buf (Elt Ideal) ((c.tc : Thread nD τ).loc main_arg1))
      ∧ m ((c.tc : Thread nD τ).loc main_arg2) = ((fun j : S768.Idx => ((ba j : ℝ) : EReal)) : Buf (Elt Ideal) ((c.tc : Thread nD τ).loc main_arg2))
      ∧ m ((c.tc : Thread nD τ).loc main_arg3) = ((fun j : S256x256.Idx => ((woa j : ℝ) : EReal)) : Buf (Elt Ideal) ((c.tc : Thread nD τ).loc main_arg3))
      ∧ m ((c.tc : Thread nD τ).loc main_arg4) = ((fun j : S256.Idx => ((boa j : ℝ) : EReal)) : Buf (Elt Ideal) ((c.tc : Thread nD τ).loc main_arg4)) := by
  have h := congrFun (hpre c) ix0
  dsimp only [Cert.Pre_finite_inputs.fn, Cert.Pre_finite_inputs.fn_part1] at h
  obtain ⟨h0123, e4⟩ := IntOp.andi_eq_one.mp h
  obtain ⟨h012, e3⟩ := IntOp.andi_eq_one.mp h0123
  obtain ⟨h01, e2⟩ := IntOp.andi_eq_one.mp h012
  obtain ⟨e0, e1⟩ := IntOp.andi_eq_one.mp h01
  refine ⟨fun j => ((m ((c.tc : Thread nD τ).loc main_arg0) : S4x256x64x64.Idx → EReal) j).toReal, fun j => ((m ((c.tc : Thread nD τ).loc main_arg1) : S768x256.Idx → EReal) j).toReal,
    fun j => ((m ((c.tc : Thread nD τ).loc main_arg2) : S768.Idx → EReal) j).toReal, fun j => ((m ((c.tc : Thread nD τ).loc main_arg3) : S256x256.Idx → EReal) j).toReal,
    fun j => ((m ((c.tc : Thread nD τ).loc main_arg4) : S256.Idx → EReal) j).toReal, ?_, ?_, ?_, ?_, ?_⟩
  · funext j; exact (entry_real _ _ _ _ e0 j).symm
  · funext j; exact (entry_real _ _ _ _ e1 j).symm
  · funext j; exact (entry_real _ _ _ _ e2 j).symm
  · funext j; exact (entry_real _ _ _ _ e3 j).symm
  · funext j; exact (entry_real _ _ _ _ e4 j).symm

section Arrays
variable (m : (ℓ : Loc nD τ sig) → Buf (Elt Ideal) ℓ) (c : Dev nD)

theorem V_x : (V (F := Ideal) m c main_v0 : S4x256x4096.Idx → EReal)
    = shapeCast S4x256x4096 (m ((c.tc : Thread nD τ).loc main_arg0) : S4x256x64x64.Idx → EReal) shapeCasts_S4x256x64x64_S4x256x4096 := by
  show StableHlo.after hostOps0 (fun b => m (c, b)) (Proc.devRef .tc main_v0) = _
  after_results
  rfl
theorem V_b : (V (F := Ideal) m c main_v1 : S768x1.Idx → EReal)
    = shapeCast S768x1 (m ((c.tc : Thread nD τ).loc main_arg2) : S768.Idx → EReal) shapeCasts_S768_S768x1 := by
  show StableHlo.after hostOps0 (fun b => m (c, b)) (Proc.devRef .tc main_v1) = _
  after_results
  rfl
theorem V_bo : (V (F := Ideal) m c main_v2 : S256x1.Idx → EReal)
    = shapeCast S256x1 (m ((c.tc : Thread nD τ).loc main_arg4) : S256.Idx → EReal) shapeCasts_S256_S256x1 := by
  show StableHlo.after hostOps0 (fun b => m (c, b)) (Proc.devRef .tc main_v2) = _
  after_results
  rfl
end Arrays

theorem x_view_apply {α : Type} (x : S4x256x64x64.Idx → α) (b : Fin 4) (ch : Fin 256) (n : Fin 4096) :
    shapeCast S4x256x4096 x shapeCasts_S4x256x64x64_S4x256x4096 (ix3 b ch n) = x (ix4 b ch (tokRow n) (tokCol n)) :=
  shapeCast_apply x shapeCasts_S4x256x64x64_S4x256x4096 _ _ (by
    have hn := n.isLt
    rw [Shape.rowMajor_val_four, Shape.rowMajor_val_three]
    show ((b.val * 256 + ch.val) * 64 + n.val / 64) * 64 + n.val % 64 = (b.val * 256 + ch.val) * 4096 + n.val
    omega)

theorem col_view_apply {a : ℕ} {α : Type} (x : (⟨1, ![a]⟩ : Shape).Idx → α) (h : (⟨1, ![a]⟩ : Shape).ShapeCasts ⟨2, ![a, 1]⟩)
    (f : Fin a) (z : Fin 1) : shapeCast ⟨2, ![a, 1]⟩ x h (ix2 f z) = x (ix1 f) :=
  shapeCast_apply x h _ _ (by
    have hz : z.val = 0 := by omega
    rw [Shape.rowMajor_val_one, Shape.rowMajor_val_two]
    show f.val = f.val * 1 + z.val
    rw [hz]; omega)

theorem index0 : ∀ t : Fin cfg0.N, win0_0.index t 0 = t.val / 16 ∧ win0_0.index t 1 = 0 ∧ win0_0.index t 2 = 0 :=
  (by decide +kernel : ∀ t : Fin grid0.N, win0_0.index t (0 : Fin 3) = t.val / 16 ∧ win0_0.index t (1 : Fin 3) = 0 ∧ win0_0.index t (2 : Fin 3) = 0)
theorem index1 : ∀ t : Fin cfg0.N, win0_1.index t 0 = 0 ∧ win0_1.index t 1 = 0 :=
  (by decide +kernel : ∀ t : Fin grid0.N, win0_1.index t (0 : Fin 2) = 0 ∧ win0_1.index t (1 : Fin 2) = 0)
theorem index2 : ∀ t : Fin cfg0.N, win0_2.index t 0 = 0 ∧ win0_2.index t 1 = 0 :=
  (by decide +kernel : ∀ t : Fin grid0.N, win0_2.index t (0 : Fin 2) = 0 ∧ win0_2.index t (1 : Fin 2) = 0)
theorem index3 : ∀ t : Fin cfg0.N, win0_3.index t 0 = 0 ∧ win0_3.index t 1 = 0 :=
  (by decide +kernel : ∀ t : Fin grid0.N, win0_3.index t (0 : Fin 2) = 0 ∧ win0_3.index t (1 : Fin 2) = 0)
theorem index4 : ∀ t : Fin cfg0.N, win0_4.index t 0 = 0 ∧ win0_4.index t 1 = 0 :=
  (by decide +kernel : ∀ t : Fin grid0.N, win0_4.index t (0 : Fin 2) = 0 ∧ win0_4.index t (1 : Fin 2) = 0)

section Reads
variable (m : (ℓ : Loc nD τ sig) → Buf (Elt Ideal) ℓ) (c : Dev nD)

theorem B0_at (t : Fin cfg0.N) (z : Fin 1) (ch : Fin 256) (n : Fin 4096) :
    B0 (F := Ideal) m c t (ix3 z ch n) = (V (F := Ideal) m c main_v0 : S4x256x4096.Idx → EReal) (ix3 (batchOf t) ch n) := by
  have hi := index0 t
  have hz := z.isLt
  show iblk (F := Ideal) m c 0 t (ix3 z ch n) = _
  unfold iblk
  rw [View.read_apply]
  show (V (F := Ideal) m c main_v0 : S4x256x4096.Idx → EReal) _ = (V (F := Ideal) m c main_v0 : S4x256x4096.Idx → EReal) (ix3 (batchOf t) ch n)
  congr 1
  funext a
  apply Fin.ext
  match a with
  | ⟨0, _⟩ => show win0_0.index t 0 * 1 + 1 * z.val = t.val / 16; rw [hi.1]; omega
  | ⟨1, _⟩ => show win0_0.index t 1 * 256 + 1 * ch.val = ch.val; rw [hi.2.1]; omega
  | ⟨2, _⟩ => show win0_0.index t 2 * 4096 + 1 * n.val = n.val; rw [hi.2.2]; omega
theorem B1_at (t : Fin cfg0.N) (f : Fin 768) (ch : Fin 256) :
    B1 (F := Ideal) m c t (ix2 f ch) = (V (F := Ideal) m c main_arg1 : S768x256.Idx → EReal) (ix2 f ch) := by
  have hi := index1 t
  show iblk (F := Ideal) m c 1 t (ix2 f ch) = _
  unfold iblk
  rw [View.read_apply]
  show (V (F := Ideal) m c main_arg1 : S768x256.Idx → EReal) _ = (V (F := Ideal) m c main_arg1 : S768x256.Idx → EReal) (ix2 f ch)
  congr 1
  funext a
  apply Fin.ext
  match a with
  | ⟨0, _⟩ => show win0_1.index t 0 * 768 + 1 * f.val = f.val; rw [hi.1]; omega
  | ⟨1, _⟩ => show win0_1.index t 1 * 256 + 1 * ch.val = ch.val; rw [hi.2]; omega
theorem B2_at (t : Fin cfg0.N) (f : Fin 768) (z : Fin 1) :
    B2 (F := Ideal) m c t (ix2 f z) = (V (F := Ideal) m c main_v1 : S768x1.Idx → EReal) (ix2 f z) := by
  have hi := index2 t
  show iblk (F := Ideal) m c 2 t (ix2 f z) = _
  unfold iblk
  rw [View.read_apply]
  show (V (F := Ideal) m c main_v1 : S768x1.Idx → EReal) _ = (V (F := Ideal) m c main_v1 : S768x1.Idx → EReal) (ix2 f z)
  congr 1
  funext a
  apply Fin.ext
  match a with
  | ⟨0, _⟩ => show win0_2.index t 0 * 768 + 1 * f.val = f.val; rw [hi.1]; omega
  | ⟨1, _⟩ => show win0_2.index t 1 * 1 + 1 * z.val = z.val; rw [hi.2]; omega
theorem B3_at (t : Fin cfg0.N) (e f : Fin 256) :
    B3 (F := Ideal) m c t (ix2 e f) = (V (F := Ideal) m c main_arg3 : S256x256.Idx → EReal) (ix2 e f) := by
  have hi := index3 t
  show iblk (F := Ideal) m c 3 t (ix2 e f) = _
  unfold iblk
  rw [View.read_apply]
  show (V (F := Ideal) m c main_arg3 : S256x256.Idx → EReal) _ = (V (F := Ideal) m c main_arg3 : S256x256.Idx → EReal) (ix2 e f)
  congr 1
  funext a
  apply Fin.ext
  match a with
  | ⟨0, _⟩ => show win0_3.index t 0 * 256 + 1 * e.val = e.val; rw [hi.1]; omega
  | ⟨1, _⟩ => show win0_3.index t 1 * 256 + 1 * f.val = f.val; rw [hi.2]; omega
theorem B4_at (t : Fin cfg0.N) (e : Fin 256) (z : Fin 1) :
    B4 (F := Ideal) m c t (ix2 e z) = (V (F := Ideal) m c main_v2 : S256x1.Idx → EReal) (ix2 e z) := by
  have hi := index4 t
  show iblk (F := Ideal) m c 4 t (ix2 e z) = _
  unfold iblk
  rw [View.read_apply]
  show (V (F := Ideal) m c main_v2 : S256x1.Idx → EReal) _ = (V (F := Ideal) m c main_v2 : S256x1.Idx → EReal) (ix2 e z)
  congr 1
  funext a
  apply Fin.ext
  match a with
  | ⟨0, _⟩ => show win0_4.index t 0 * 256 + 1 * e.val = e.val; rw [hi.1]; omega
  | ⟨1, _⟩ => show win0_4.index t 1 * 1 + 1 * z.val = z.val; rw [hi.2]; omega
end Reads

section
variable (m : (ℓ : Loc nD τ sig) → Buf (Elt Ideal) ℓ) (c : Dev nD)
  (xa : S4x256x64x64.Idx → ℝ) (wa : S768x256.Idx → ℝ) (ba : S768.Idx → ℝ) (woa : S256x256.Idx → ℝ) (boa : S256.Idx → ℝ)
  (h0 : m ((c.tc : Thread nD τ).loc main_arg0) = ((fun j : S4x256x64x64.Idx => ((xa j : ℝ) : EReal)) : Buf (Elt Ideal) ((c.tc : Thread nD τ).loc main_arg0)))
  (h1 : m ((c.tc : Thread nD τ).loc main_arg1) = ((fun j : S768x256.Idx => ((wa j : ℝ) : EReal)) : Buf (Elt Ideal) ((c.tc : Thread nD τ).loc main_arg1)))
  (h2 : m ((c.tc : Thread nD τ).loc main_arg2) = ((fun j : S768.Idx => ((ba j : ℝ) : EReal)) : Buf (Elt Ideal) ((c.tc : Thread nD τ).loc main_arg2)))
  (h3 : m ((c.tc : Thread nD τ).loc main_arg3) = ((fun j : S256x256.Idx => ((woa j : ℝ) : EReal)) : Buf (Elt Ideal) ((c.tc : Thread nD τ).loc main_arg3)))
  (h4 : m ((c.tc : Thread nD τ).loc main_arg4) = ((fun j : S256.Idx => ((boa j : ℝ) : EReal)) : Buf (Elt Ideal) ((c.tc : Thread nD τ).loc main_arg4)))

include h0 in
theorem B0_apply (t : Fin cfg0.N) (z : Fin 1) (ch : Fin 256) (n : Fin 4096) :
    B0 (F := Ideal) m c t (ix3 z ch n) = ((toX xa (batchOf t) ch n : ℝ) : EReal) := by
  rw [B0_at, V_x, x_view_apply, h0]
  rfl
include h1 in
theorem B1_apply (t : Fin cfg0.N) (f : Fin 768) (ch : Fin 256) :
    B1 (F := Ideal) m c t (ix2 f ch) = ((toW wa f ch : ℝ) : EReal) := by
  rw [B1_at, V_main_arg1, h1]
  rfl
include h2 in
theorem B2_apply (t : Fin cfg0.N) (f : Fin 768) (z : Fin 1) :
    B2 (F := Ideal) m c t (ix2 f z) = ((toB ba f : ℝ) : EReal) := by
  rw [B2_at, V_b, col_view_apply, h2]
  rfl
include h3 in
theorem B3_apply (t : Fin cfg0.N) (e f : Fin 256) :
    B3 (F := Ideal) m c t (ix2 e f) = ((toW woa e f : ℝ) : EReal) := by
  rw [B3_at, V_main_arg3, h3]
  rfl
include h4 in
theorem B4_apply (t : Fin cfg0.N) (e : Fin 256) (z : Fin 1) :
    B4 (F := Ideal) m c t (ix2 e z) = ((toB boa e : ℝ) : EReal) := by
  rw [B4_at, V_bo, col_view_apply, h4]
  rfl
end

end Cert.KernelIdeal.Val

end
-- ==== Proof.IdealValue.ArrayOut.lean ====
import proofs.«406710_j33887291965459_3_alg».proof.Proof.IdealFrame.Frame
import proofs.«406710_j33887291965459_3_alg».proof.Proof.IdealValue.ProjAt
import proofs.«406710_j33887291965459_3_alg».proof.Proof.IdealValue.Batch
import proofs.«406710_j33887291965459_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Val

open Cert.KernelIdeal Cert.KernelIdeal.Gen Cert.KernelIdeal.Body
open Idealize.ShloMosaic Idealize.ShloMosaic.ValueIdx

open Idealize.SL.Sem Cert.Attn

private def arrOf (G3 : Fin 4 → Fin 256 → Fin 4096 → EReal) : S4x256x4096.Idx → EReal := fun i => G3 (i 0) (i 1) (i 2)

private theorem arrOf_apply (G3 : Fin 4 → Fin 256 → Fin 4096 → EReal) (i : S4x256x4096.Idx) (b : Fin 4) (e : Fin 256) (n : Fin 4096)
    (h0 : (i 0).val = b.val) (h1 : (i 1).val = e.val) (h2 : (i 2).val = n.val) : arrOf G3 i = G3 b e n := by
  have a0 : (i 0 : Fin 4) = b := Fin.ext h0
  have a1 : (i 1 : Fin 256) = e := Fin.ext h1
  have a2 : (i 2 : Fin 4096) = n := Fin.ext h2
  show G3 (i 0) (i 1) (i 2) = G3 b e n
  rw [a0, a1, a2]

private theorem idx5 : ∀ t : Fin cfg0.N, win0_5.index t (0 : Fin 3) = t.val / 16 ∧ win0_5.index t (1 : Fin 3) = 0
    ∧ win0_5.index t (2 : Fin 3) = (t.val / 4) % 4 :=
  (by decide +kernel : ∀ t : Fin grid0.N, win0_5.index t (0 : Fin 3) = t.val / 16 ∧ win0_5.index t (1 : Fin 3) = 0
    ∧ win0_5.index t (2 : Fin 3) = (t.val / 4) % 4)

private theorem flushed5_eq (m : (ℓ : Loc nD τ sig) → Buf (Elt Ideal) ℓ) (c : Dev nD) (G : Fin 4 → Fin 256 → Fin 4096 → EReal)
    (hblk : ∀ (t : Fin cfg0.N) (hO : condO (grid0.coords t)) (z : Fin 1) (e : Fin 256) (r : Fin 1024),
      outAt (F := Ideal) m c t (ix3 z e r) = G (batchOf t) e (qryTok t r))
    (t : Fin cfg0.N) (hf : (cfg0.win 5).flush t = true) :
    (dats (F := Ideal) m 0 c).flushed 5 t = ((cfg0.win 5).blk t).view.read (Elt Ideal) (arrOf G) := by
  have ht : t.val % 4 = 3 := (flush0_5 t).mp hf
  have hO : condO (grid0.coords t) := (hcondO t).mpr ht
  obtain ⟨q0, q1, q2⟩ := idx5 t
  show (cfg0.win 5).cut (grid0.coords t) ((dats (F := Ideal) m 0 c).after 5 t) = _
  rw [after5]
  funext y
  rw [View.read_apply]
  have y0 : (y 0).val < 1 := (y 0).isLt
  have y1 : (y 1).val < 256 := (y 1).isLt
  have y2 : (y 2).val < 1024 := (y 2).isLt
  have hx : (cfg0.win 5).xinj (grid0.coords t) y = ix3 (⟨(y 0).val, y0⟩ : Fin 1) (⟨(y 1).val, y1⟩ : Fin 256) (⟨(y 2).val, y2⟩ : Fin 1024) := by
    funext a
    match a with
    | ⟨0, _⟩ => rfl
    | ⟨1, _⟩ => rfl
    | ⟨2, _⟩ => rfl
  show outAt (F := Ideal) m c t ((cfg0.win 5).xinj (grid0.coords t) y) = arrOf G (((cfg0.win 5).blk t).view.emb y)
  rw [hx]
  refine (hblk t hO _ _ _).trans (arrOf_apply G _ _ _ _ ?_ ?_ ?_).symm
  · show win0_5.index t (0 : Fin 3) * 1 + 1 * (y 0).val = t.val / 16
    rw [q0]; omega
  · show win0_5.index t (1 : Fin 3) * 256 + 1 * (y 1).val = (y 1).val
    rw [q1]; omega
  · show win0_5.index t (2 : Fin 3) * 1024 + 1 * (y 2).val = 1024 * ((t.val / 4) % 4) + (y 2).val
    rw [q2]; omega

private theorem cover5 (i : S4x256x4096.Idx) :
    ∃ t : Fin cfg0.N, (cfg0.win 5).flush t = true ∧ i ∈ ((cfg0.win 5).blk t).view.set := by
  have h0 : (i 0).val < 4 := (i 0).isLt
  have h1 : (i 1).val < 256 := (i 1).isLt
  have h2 : (i 2).val < 4096 := (i 2).isLt
  have hN : cfg0.N = 64 := N_0
  obtain ⟨t, tv⟩ : ∃ t : Fin cfg0.N, t.val = 16 * (i 0).val + 4 * ((i 2).val / 1024) + 3 :=
    ⟨⟨16 * (i 0).val + 4 * ((i 2).val / 1024) + 3, by rw [hN]; omega⟩, rfl⟩
  refine ⟨t, (flush0_5 t).mpr (by rw [tv]; omega), ?_⟩
  obtain ⟨q0, q1, q2⟩ := idx5 t
  show i ∈ ((View.whole main_v3).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + 1
    rw [q0, tv]; omega
  | ⟨1, _⟩ =>
    show win0_5.index t (1 : Fin 3) * 256 ≤ (i 1).val ∧ (i 1).val < win0_5.index t (1 : Fin 3) * 256 + 256
    rw [q1]; omega
  | ⟨2, _⟩ =>
    show win0_5.index t (2 : Fin 3) * 1024 ≤ (i 2).val ∧ (i 2).val < win0_5.index t (2 : Fin 3) * 1024 + 1024
    rw [q2, tv]; omega

private theorem final5 (m : (ℓ : Loc nD τ sig) → Buf (Elt Ideal) ℓ) (c : Dev nD) (G : Fin 4 → Fin 256 → Fin 4096 → EReal)
    (hblk : ∀ (t : Fin cfg0.N) (hO : condO (grid0.coords t)) (z : Fin 1) (e : Fin 256) (r : Fin 1024),
      outAt (F := Ideal) m c t (ix3 z e r) = G (batchOf t) e (qryTok t r)) : (dats (F := Ideal) m 0 c).arrAt 5 cfg0.N = arrOf G :=
  (dats (F := Ideal) m 0 c).arrAt_eq_of_cover 5 (arrOf G) (flushed5_eq m c G hblk) cover5

private theorem tail5 (m : (ℓ : Loc nD τ sig) → Buf (Elt Ideal) ℓ) (c : Dev nD) (G : Fin 4 → Fin 256 → Fin 4096 → EReal)
    (hblk : ∀ (t : Fin cfg0.N) (hO : condO (grid0.coords t)) (z : Fin 1) (e : Fin 256) (r : Fin 1024),
      outAt (F := Ideal) m c t (ix3 z e r) = G (batchOf t) e (qryTok t r)) :
    Pipeline.afterTail₀ cfgs (dats (F := Ideal) m) 0 (V0 m) [hostOps1] c main_v4
      = ((fun i : S4x256x64x64.Idx => G (i 0) (i 1) (tokOf (i 2) (i 3))) : Buf (Elt Ideal) ((c.tc : Thread nD τ).loc main_v4)) := by
  unfold Pipeline.afterTail₀
  show StableHlo.after hostOps1 _ (Proc.devRef .tc main_v4) = _
  after_results
  have hA : Pipeline.withArrays (cfgs 0).spec c (V0 m c) (fun w => (dats (F := Ideal) m 0 c).arrAt w (cfgs 0).N) (Proc.devRef .tc main_v3) = arrOf G :=
    (Pipeline.withArrays_arr spec0 launch0.win.arr_inj c _ _ 5).trans (final5 m c G hblk)
  rw [hA]
  funext i
  have i0 : (i 0).val < 4 := (i 0).isLt
  have i1 : (i 1).val < 256 := (i 1).isLt
  have i2 : (i 2).val < 64 := (i 2).isLt
  have i3 : (i 3).val < 64 := (i 3).isLt
  show shapeCast S4x256x64x64 (arrOf G) shapeCasts_S4x256x4096_S4x256x64x64 i = G (i 0) (i 1) (tokOf (i 2) (i 3))
  refine (shapeCast_apply (arrOf G) shapeCasts_S4x256x4096_S4x256x64x64 i
    (ix3 (i 0 : Fin 4) (i 1 : Fin 256) (tokOf (i 2) (i 3)) : S4x256x4096.Idx) ?_).trans rfl
  rw [Shape.rowMajor_val_three, Shape.rowMajor_val_four]
  show ((i 0).val * 256 + (i 1).val) * 4096 + (64 * (i 2).val + (i 3).val) = (((i 0).val * 256 + (i 1).val) * 64 + (i 2).val) * 64 + (i 3).val
  omega

theorem result_of_blocks (m : (ℓ : Loc nD τ sig) → Buf (Elt Ideal) ℓ) (ρ : Dev nD → PrngReg)
    (G3 : Dev nD → Fin 4 → Fin 256 → Fin 4096 → EReal)
    (hblk : ∀ (c : Dev nD) (t : Fin cfg0.N) (hO : condO (grid0.coords t)) (z : Fin 1) (e : Fin 256) (r : Fin 1024),
      outAt (F := Ideal) m c t (ix3 z e r) = G3 c (batchOf t) e (qryTok t r)) :
    θ_run (defs (F := Ideal)) (onTc (τ := τ) (main (F := Ideal))) ⟨m, fun _ => 0, ρ⟩ (fun r => ∀ c : Dev nD,
      r.2.mem ((c.tc : Thread nD τ).loc main_v4)
          = ((fun i : S4x256x64x64.Idx => G3 c (i 0) (i 1) (tokOf (i 2) (i 3))) : Buf (Elt Ideal) ((c.tc : Thread nD τ).loc main_v4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine (θ_run (defs (F := Ideal)) _ _).mono (fun r h c => ⟨?_, ?_, ?_, ?_, ?_, ?_⟩) (run_main (F := Ideal) m ρ)
  · exact ((h c).2 main_v4 (Pipeline.mem_restRefs_of main_v4 (by decide) (by decide))).trans (tail5 m c (G3 c) (hblk c))
  · exact ((h c).2 main_arg0 (Pipeline.mem_restRefs_of main_arg0 (by decide) (by decide))).trans (W_main_arg0 m (dats m) c)
  · exact ((h c).1 1).trans (((dats (F := Ideal) m 0 c).arrAt_in 1 rfl _).trans ((A_eq m c 1).trans (V_main_arg1 m c)))
  · exact ((h c).2 main_arg2 (Pipeline.mem_restRefs_of main_arg2 (by decide) (by decide))).trans (W_main_arg2 m (dats m) c)
  · exact ((h c).1 3).trans (((dats (F := Ideal) m 0 c).arrAt_in 3 rfl _).trans ((A_eq m c 3).trans (V_main_arg3 m c)))
  · exact ((h c).2 main_arg4 (Pipeline.mem_restRefs_of main_arg4 (by decide) (by decide))).trans (W_main_arg4 m (dats m) c)

end Cert.KernelIdeal.Val

end
-- ==== Proof.LibHostRows.lean ====
import Idealize.ShloMosaic.PureOps.Ideal
import Idealize.ShloMosaic.PureOps.Ideal.Laws
import Idealize.ShloMosaic.Lib.ValueIdx
import Idealize.ShloMosaic.Lib.Pipeline.Value

noncomputable section

namespace Cert.LibHostRows

open Idealize.ShloMosaic Idealize.ShloMosaic.ValueIdx

theorem hostReduceAdd_rows_apply {a b : ℕ} {φ : FTy} (x : FVec Ideal ⟨2, ![a, b]⟩ φ) (init : (⟨0, ![]⟩ : Shape).Idx → Ideal φ)
    (h : (⟨2, ![a, b]⟩ : Shape).ReducesTo [1] ⟨1, ![a]⟩) (hu : 0 < (⟨0, ![]⟩ : Shape).numel) (r : Fin a) :
    Host.reduceAdd x init h hu (ix1 r) = init ix0 + ∑ k : Fin b, x (ix2 r k) := by
  have hR : (⟨2, ![a, b]⟩ : Shape).Reduces [1] ⟨1, ![a]⟩ := ⟨h.1, Nat.one_pos, h.2⟩
  have e0 : Shape.Idx.first hu = ix0 := eq_ix0 _
  unfold Host.reduceAdd
  rw [Ideal.hostReduceAdd_def, Ideal.hostReduceAdd_single h hR, e0]
  refine congrArg (fun z => init ix0 + z) (Finset.sum_congr rfl fun k _ => congrArg x ?_)
  funext c
  match c with
  | ⟨0, _⟩ => rfl
  | ⟨1, _⟩ => rfl

theorem broadcastInDim_vec_col_apply {a : ℕ} {α : Type} (v : (⟨1, ![a]⟩ : Shape).Idx → α)
    (h : (⟨1, ![a]⟩ : Shape).BroadcastsInDim ⟨2, ![a, 1]⟩ (![0] : Fin 1 → Fin 2)) (r : Fin a) (z : Fin 1) :
    broadcastInDim ⟨2, ![a, 1]⟩ ![0] h v (ix2 r z) = v (ix1 r) := by
  refine broadcastInDim_apply _ h v (ix2 r z) (ix1 r) fun ax => ?_
  match ax with
  | ⟨0, _⟩ =>
    show r.val = if a = 1 then 0 else r.val
    split
    · have := r.isLt; omega
    · rfl

theorem broadcastInDim_scalar_apply {t : Shape} {α : Type} (v : (⟨0, ![]⟩ : Shape).Idx → α)
    (h : (⟨0, ![]⟩ : Shape).BroadcastsInDim t (![] : Fin 0 → Fin t.rank)) (j : t.Idx) :
    broadcastInDim t ![] h v j = v ix0 := by
  exact broadcastInDim_apply _ h v j ix0 fun ax => ax.elim0

theorem broadcastInDim_col_apply {a b : ℕ} {α : Type} (v : (⟨2, ![a, 1]⟩ : Shape).Idx → α)
    (h : (⟨2, ![a, 1]⟩ : Shape).BroadcastsInDim ⟨2, ![a, b]⟩ (![0, 1] : Fin 2 → Fin 2)) (r : Fin a) (k : Fin b) :
    broadcastInDim ⟨2, ![a, b]⟩ ![0, 1] h v (ix2 r k) = v (ix2 r (0 : Fin 1)) := by
  refine broadcastInDim_apply _ h v (ix2 r k) (ix2 r (0 : Fin 1)) fun ax => ?_
  match ax with
  | ⟨0, _⟩ =>
    show r.val = if a = 1 then 0 else r.val
    split
    · have := r.isLt; omega
    · rfl
  | ⟨1, _⟩ => rfl

theorem broadcastInDim_vec_row_apply {b : ℕ} {α : Type} (v : (⟨1, ![b]⟩ : Shape).Idx → α)
    (h : (⟨1, ![b]⟩ : Shape).BroadcastsInDim ⟨2, ![1, b]⟩ (![1] : Fin 1 → Fin 2)) (z : Fin 1) (k : Fin b) :
    broadcastInDim ⟨2, ![1, b]⟩ ![1] h v (ix2 z k) = v (ix1 k) := by
  refine broadcastInDim_apply _ h v (ix2 z k) (ix1 k) fun ax => ?_
  match ax with
  | ⟨0, _⟩ =>
    show k.val = if b = 1 then 0 else k.val
    split
    · have := k.isLt; omega
    · rfl

theorem broadcastInDim_row_apply {a b : ℕ} {α : Type} (v : (⟨2, ![1, b]⟩ : Shape).Idx → α)
    (h : (⟨2, ![1, b]⟩ : Shape).BroadcastsInDim ⟨2, ![a, b]⟩ (![0, 1] : Fin 2 → Fin 2)) (r : Fin a) (k : Fin b) :
    broadcastInDim ⟨2, ![a, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

end Cert.LibHostRows

end
-- ==== Proof.RefG.lean ====
import proofs.«406710_j33887291965459_3_alg».proof.Proof.RefImports
import proofs.«406710_j33887291965459_3_alg».proof.Proof.Spec
import proofs.«406710_j33887291965459_3_alg».proof.Proof.OnlineSoftmax
import proofs.«406710_j33887291965459_3_alg».proof.Proof.LibHostRows
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx
open Cert.Attn

abbrev cz {s : Shape} (a : s.Idx → ℝ) : s.Idx → EReal := fun j => ((a j : ℝ) : EReal)

theorem tokRow_tokOf (h w : Fin 64) : tokRow (tokOf h w) = h := Fin.ext (by
  have := h.isLt; have := w.isLt; show (64 * h.val + w.val) / 64 = h.val; omega)

theorem tokCol_tokOf (h w : Fin 64) : tokCol (tokOf h w) = w := Fin.ext (by
  have := h.isLt; have := w.isLt; show (64 * h.val + w.val) % 64 = w.val; omega)

theorem idx_x (b : Fin 4) (n : Fin 4096) (c : Fin 256) :
    idx_main_v0 (idx_main_v1 (ix3 b n c)) = ix4 b c (tokRow n) (tokCol n) := by
  funext a
  apply Fin.ext
  have hb := b.isLt; have hn := n.isLt; have hc := c.isLt
  match a with
  | ⟨0, _⟩ => show ((b.val * 256 + c.val) * 4096 + n.val) / 1048576 = b.val; omega
  | ⟨1, _⟩ => show ((b.val * 256 + c.val) * 4096 + n.val) / 4096 % 256 = c.val; omega
  | ⟨2, _⟩ => show ((b.val * 256 + c.val) * 4096 + n.val) / 64 % 64 = n.val / 64; omega
  | ⟨3, _⟩ => show ((b.val * 256 + c.val) * 4096 + n.val) % 64 = n.val % 64; omega

theorem idx_out (b : Fin 4) (e : Fin 256) (h w : Fin 64) :
    idx_main_v29 (idx_main_v30 (ix4 b e h w)) = ix3 b (tokOf h w) e := by
  funext a
  apply Fin.ext
  have hb := b.isLt; have he := e.isLt; have hh := h.isLt; have hw := w.isLt
  match a with
  | ⟨0, _⟩ => show (((b.val * 256 + e.val) * 64 + h.val) * 64 + w.val) / 1048576 = b.val; omega
  | ⟨1, _⟩ => show (((b.val * 256 + e.val) * 64 + h.val) * 64 + w.val) % 4096 = 64 * h.val + w.val; omega
  | ⟨2, _⟩ => show (((b.val * 256 + e.val) * 64 + h.val) * 64 + w.val) / 4096 % 256 = e.val; omega

theorem lidx2 (b : Fin 4) (n : Fin 4096) (f : Fin 768) (k : Fin 256) : lidx_main_v2 (ix3 b n f) k = ix3 b n k := by
  funext a; match a with | ⟨0, _⟩ => rfl | ⟨1, _⟩ => rfl | ⟨2, _⟩ => rfl
theorem ridx2 (b : Fin 4) (n : Fin 4096) (f : Fin 768) (k : Fin 256) : ridx_main_v2 (ix3 b n f) k = ix2 f k := by
  funext a; match a with | ⟨0, _⟩ => rfl | ⟨1, _⟩ => rfl
theorem idx34 (b : Fin 4) (n : Fin 4096) (f : Fin 768) : idx_main_v3 (idx_main_v4 (ix3 b n f)) = ix1 f := by
  funext a; match a with | ⟨0, _⟩ => rfl
theorem idx6 (b : Fin 4) (n : Fin 4096) (e : Fin 256) : idx_main_v6 (ix3 b n e) = ix3 b n (qF e) := by
  funext a; match a with | ⟨0, _⟩ => rfl | ⟨1, _⟩ => rfl | ⟨2, _⟩ => rfl
theorem idx7 (b : Fin 4) (n : Fin 4096) (e : Fin 256) : idx_main_v7 (ix3 b n e) = ix3 b n (kF e) := by
  funext a; match a with | ⟨0, _⟩ => rfl | ⟨1, _⟩ => rfl | ⟨2, _⟩ => rfl
theorem idx8 (b : Fin 4) (n : Fin 4096) (e : Fin 256) : idx_main_v8 (ix3 b n e) = ix3 b n (vF e) := by
  funext a; match a with | ⟨0, _⟩ => rfl | ⟨1, _⟩ => rfl | ⟨2, _⟩ => rfl
theorem lidx9 (b : Fin 4) (i j : Fin 4096) (k : Fin 256) : lidx_main_v9 (ix3 b i j) k = ix3 b i k := by
  funext a; match a with | ⟨0, _⟩ => rfl | ⟨1, _⟩ => rfl | ⟨2, _⟩ => rfl
theorem ridx9 (b : Fin 4) (i j : Fin 4096) (k : Fin 256) : ridx_main_v9 (ix3 b i j) k = ix3 b j k := by
  funext a; match a with | ⟨0, _⟩ => rfl | ⟨1, _⟩ => rfl | ⟨2, _⟩ => rfl

section
variable (xa : S4x256x64x64.Idx → ℝ) (wa : S768x256.Idx → ℝ) (ba : S768.Idx → ℝ) (woa : S256x256.Idx → ℝ) (boa : S256.Idx → ℝ)

theorem v1_at (b : Fin 4) (n : Fin 4096) (c : Fin 256) :
    val_main_v1 (F := Ideal) (cz xa) (ix3 b n c) = ((toX xa b c n : ℝ) : EReal) := by
  rw [val_main_v1_apply, val_main_v0_apply, idx_x]
  rfl

theorem v5_at (b : Fin 4) (n : Fin 4096) (f : Fin 768) :
    val_main_v5 (F := Ideal) (cz xa) (cz wa) (cz ba) (ix3 b n f)
      = ((proj (toX xa) (toW wa) (toB ba) b n f : ℝ) : EReal) := by
  rw [val_main_v5_apply, val_main_v2_apply, val_main_v4_apply, val_main_v3_apply]
  simp only [lidx2, ridx2, idx34, v1_at]
  simp only [Ideal.addf_def, proj, toW, toB, cz, EReal.coe_add, coe_sum, EReal.coe_mul]

theorem v6_at (b : Fin 4) (n : Fin 4096) (e : Fin 256) :
    val_main_v6 (F := Ideal) (cz xa) (cz wa) (cz ba) (ix3 b n e)
      = ((proj (toX xa) (toW wa) (toB ba) b n (qF e) : ℝ) : EReal) := by
  rw [val_main_v6_apply, idx6, v5_at]
theorem v7_at (b : Fin 4) (n : Fin 4096) (e : Fin 256) :
    val_main_v7 (F := Ideal) (cz xa) (cz wa) (cz ba) (ix3 b n e)
      = ((proj (toX xa) (toW wa) (toB ba) b n (kF e) : ℝ) : EReal) := by
  rw [val_main_v7_apply, idx7, v5_at]
theorem v8_at (b : Fin 4) (n : Fin 4096) (e : Fin 256) :
    val_main_v8 (F := Ideal) (cz xa) (cz wa) (cz ba) (ix3 b n e)
      = ((proj (toX xa) (toW wa) (toB ba) b n (vF e) : ℝ) : EReal) := by
  rw [val_main_v8_apply, idx8, v5_at]

theorem sqrt_256 : Ideal.sqrt (Ideal.ofBits .f32 0x43800000#32) = ((16 : ℝ) : EReal) := by
  have h256 : Ideal.ofBits .f32 0x43800000#32 = ((256 : ℝ) : EReal) := by
    simp [Ideal.ofBits, Ideal.ieee, -EReal.coe_mul]; norm_num
  rw [h256, Ideal.sqrt_coe, if_neg (by norm_num)]
  have h16 : Real.sqrt 256 = 16 := by
    rw [show (256 : ℝ) = 16 ^ 2 by norm_num]
    exact Real.sqrt_sq (by norm_num)
  rw [h16]

theorem v9_at (b : Fin 4) (i j : Fin 4096) :
    val_main_v9 (F := Ideal) (cz xa) (cz wa) (cz ba) (ix3 b i j)
      = ((∑ e : Fin 256, proj (toX xa) (toW wa) (toB ba) b i (qF e) * proj (toX xa) (toW wa) (toB ba) b j (kF e) : ℝ) : EReal) := by
  rw [val_main_v9_apply]
  simp only [lidx9, ridx9, v6_at, v7_at, coe_sum, EReal.coe_mul]

theorem v12_at (b : Fin 4) (i j : Fin 4096) :
    val_main_v12 (F := Ideal) (cz xa) (cz wa) (cz ba) (ix3 b i j)
      = ((scoreR (toX xa) (toW wa) (toB ba) b i j : ℝ) : EReal) := by
  rw [val_main_v12_apply, v9_at, val_main_v11_apply, val_main_v10_apply, val_main_cst_apply]
  simp only [Ideal.hostDivf_def, Ideal.hostUnary_sqrt_def, Ideal.ofBits_def, sqrt_256]
  rw [Ideal.div_coe (by norm_num : (16 : ℝ) ≠ 0), ← EReal.coe_mul, mul_one_div]
  rfl

theorem ofBits_ninf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem idx1617 (b : Fin 4) (i j : Fin 4096) : idx_main_v16 (idx_main_v17 (ix3 b i j)) = ix2 b i := by
  funext a; match a with | ⟨0, _⟩ => rfl | ⟨1, _⟩ => rfl
theorem idx2122 (b : Fin 4) (i j : Fin 4096) : idx_main_v21 (idx_main_v22 (ix3 b i j)) = ix2 b i := by
  funext a; match a with | ⟨0, _⟩ => rfl | ⟨1, _⟩ => rfl
theorem idx20 (b : Fin 4) (i k : Fin 4096) : idx_main_v20 (ix2 b i) k = ix3 b i k := by
  funext a; match a with | ⟨0, _⟩ => rfl | ⟨1, _⟩ => rfl | ⟨2, _⟩ => rfl
theorem lidx24 (b : Fin 4) (i : Fin 4096) (f : Fin 256) (k : Fin 4096) : lidx_main_v24 (ix3 b i f) k = ix3 b i k := by
  funext a; match a with | ⟨0, _⟩ => rfl | ⟨1, _⟩ => rfl | ⟨2, _⟩ => rfl
theorem ridx24 (b : Fin 4) (i : Fin 4096) (f : Fin 256) (k : Fin 4096) : ridx_main_v24 (ix3 b i f) k = ix3 b k f := by
  funext a; match a with | ⟨0, _⟩ => rfl | ⟨1, _⟩ => rfl | ⟨2, _⟩ => rfl
theorem lidx25 (b : Fin 4) (i : Fin 4096) (e k : Fin 256) : lidx_main_v25 (ix3 b i e) k = ix3 b i k := by
  funext a; match a with | ⟨0, _⟩ => rfl | ⟨1, _⟩ => rfl | ⟨2, _⟩ => rfl
theorem ridx25 (b : Fin 4) (i : Fin 4096) (e k : Fin 256) : ridx_main_v25 (ix3 b i e) k = ix2 e k := by
  funext a; match a with | ⟨0, _⟩ => rfl | ⟨1, _⟩ => rfl
theorem idx2627 (b : Fin 4) (i : Fin 4096) (e : Fin 256) : idx_main_v26 (idx_main_v27 (ix3 b i e)) = ix1 e := by
  funext a; match a with | ⟨0, _⟩ => rfl

theorem v13_at (b : Fin 4) (i : Fin 4096) :
    val_main_v13 (F := Ideal) (cz xa) (cz wa) (cz ba) (ix2 b i)
      = (Finset.univ : Finset (Fin 4096)).fold max (⊥ : EReal)
          (fun j => ((scoreR (toX xa) (toW wa) (toB ba) b i j : ℝ) : EReal)) := by
  have hR : S4x4096x4096.Reduces [2] S4x4096 :=
    ⟨reducesTo_S4x4096x4096_S4x4096_d2.1, by decide, reducesTo_S4x4096x4096_S4x4096_d2.2⟩
  have hf : (val_main_v12 (F := Ideal) (cz xa) (cz wa) (cz ba) ∘ hR.lift (ix2 b i))
      = fun j : Fin 4096 => ((scoreR (toX xa) (toW wa) (toB ba) b i j : ℝ) : EReal) := by
    funext k
    have hl : hR.lift (ix2 b i) k = ix3 b i (⟨k.val, k.isLt⟩ : Fin 4096) := by
      funext c; apply Fin.ext
      match c with | ⟨0, _⟩ => rfl | ⟨1, _⟩ => rfl | ⟨2, _⟩ => rfl
    show val_main_v12 (F := Ideal) (cz xa) (cz wa) (cz ba) (hR.lift (ix2 b i) k) = _
    rw [hl, v12_at]
    rfl
  have hi : val_main_cst_0 (F := Ideal) (Shape.Idx.first h_S_) = (⊥ : EReal) := by
    rw [val_main_cst_0_apply]; exact ofBits_ninf
  unfold val_main_v13
  rw [Host.reduce_eq_fold_single FloatOps.maximumf _ _ reducesTo_S4x4096x4096_S4x4096_d2 hR h_S_, hi]
  exact congrArg (fun f => Finset.fold max (⊥ : EReal) f (Finset.univ : Finset (Fin 4096))) hf

theorem v15_at (b : Fin 4) (i : Fin 4096) :
    val_main_v15 (F := Ideal) (cz xa) (cz wa) (cz ba) (ix2 b i)
      = max (⊥ : EReal) ((Finset.univ : Finset (Fin 4096)).fold max (⊥ : EReal)
          (fun j => ((scoreR (toX xa) (toW wa) (toB ba) b i j : ℝ) : EReal))) := by
  rw [val_main_v15_apply, val_main_v14_apply, val_main_cst_1_apply, v13_at]
  simp only [Ideal.maximumf_def, Ideal.ofBits_def, ofBits_ninf]

theorem v19_at (b : Fin 4) (i j : Fin 4096) :
    val_main_v19 (F := Ideal) (cz xa) (cz wa) (cz ba) (ix3 b i j)
      = Ideal.exp (((scoreR (toX xa) (toW wa) (toB ba) b i j : ℝ) : EReal)
          - max (⊥ : EReal) ((Finset.univ : Finset (Fin 4096)).fold max (⊥ : EReal)
              (fun j => ((scoreR (toX xa) (toW wa) (toB ba) b i j : ℝ) : EReal)))) := by
  rw [val_main_v19_apply, val_main_v18_apply, v12_at, val_main_v17_apply, val_main_v16_apply, idx1617, v15_at,
    Ideal.hostUnary_exp_def, Ideal.subf_def]

theorem v20_at (b : Fin 4) (i : Fin 4096) :
    val_main_v20 (F := Ideal) (cz xa) (cz wa) (cz ba) (ix2 b i)
      = (0 : EReal) + ∑ k : Fin 4096, Ideal.exp (((scoreR (toX xa) (toW wa) (toB ba) b i k : ℝ) : EReal)
          - max (⊥ : EReal) ((Finset.univ : Finset (Fin 4096)).fold max (⊥ : EReal)
              (fun j => ((scoreR (toX xa) (toW wa) (toB ba) b i j : ℝ) : EReal)))) := by
  rw [val_main_v20_apply, val_main_cst_2_apply]
  simp only [idx20, v19_at, Ideal.ofBits_def, ofBits_zero]

theorem v23_at (b : Fin 4) (i j : Fin 4096) :
    val_main_v23 (F := Ideal) (cz xa) (cz wa) (cz ba) (ix3 b i j)
      = Ideal.div (Ideal.exp (((scoreR (toX xa) (toW wa) (toB ba) b i j : ℝ) : EReal)
          - max (⊥ : EReal) ((Finset.univ : Finset (Fin 4096)).fold max (⊥ : EReal)
              (fun j => ((scoreR (toX xa) (toW wa) (toB ba) b i j : ℝ) : EReal)))))
        ((0 : EReal) + ∑ k : Fin 4096, Ideal.exp (((scoreR (toX xa) (toW wa) (toB ba) b i k : ℝ) : EReal)
          - max (⊥ : EReal) ((Finset.univ : Finset (Fin 4096)).fold max (⊥ : EReal)
              (fun j => ((scoreR (toX xa) (toW wa) (toB ba) b i j : ℝ) : EReal))))) := by
  rw [val_main_v23_apply, v19_at, val_main_v22_apply, val_main_v21_apply, idx2122, v20_at,
    Ideal.hostDivf_def]

theorem v24_at (b : Fin 4) (i : Fin 4096) (f : Fin 256) :
    val_main_v24 (F := Ideal) (cz xa) (cz wa) (cz ba) (ix3 b i f)
      = ((attend (toX xa) (toW wa) (toB ba) b i f : ℝ) : EReal) := by
  rw [val_main_v24_apply]
  simp only [lidx24, ridx24, v23_at, v8_at]
  exact softmax_sum (fun j => scoreR (toX xa) (toW wa) (toB ba) b i j)
    (fun j => proj (toX xa) (toW wa) (toB ba) b j (vF f))

theorem v28_at (b : Fin 4) (i : Fin 4096) (e : Fin 256) :
    val_main_v28 (F := Ideal) (cz xa) (cz wa) (cz ba) (cz woa) (cz boa) (ix3 b i e)
      = (((∑ f : Fin 256, attend (toX xa) (toW wa) (toB ba) b i f * toW woa e f) + toB boa e : ℝ) : EReal) := by
  rw [val_main_v28_apply, val_main_v25_apply, val_main_v27_apply, val_main_v26_apply, idx2627]
  simp only [lidx25, ridx25, v24_at]
  simp only [Ideal.addf_def, toW, toB, cz, EReal.coe_add, coe_sum, EReal.coe_mul]

theorem v31_at (b : Fin 4) (e : Fin 256) (h w : Fin 64) :
    val_main_v31 (F := Ideal) (cz xa) (cz wa) (cz ba) (cz woa) (cz boa) (ix4 b e h w)
      = ((GrAt xa wa ba woa boa b e h w : ℝ) : EReal) := by
  have hx : toX xa b e (tokOf h w) = xa (ix4 b e h w) := by
    show xa (ix4 b e (tokRow (tokOf h w)) (tokCol (tokOf h w))) = _
    rw [tokRow_tokOf, tokCol_tokOf]
  rw [val_main_v31_apply, val_main_v30_apply, val_main_v29_apply, idx_out, v28_at]
  unfold GrAt Gr
  rw [hx, EReal.coe_add]
  rfl

end

theorem ref_is_Gr (xa : S4x256x64x64.Idx → ℝ) (wa : S768x256.Idx → ℝ) (ba : S768.Idx → ℝ) (woa : S256x256.Idx → ℝ) (boa : S256.Idx → ℝ)
    (b : Fin 4) (e : Fin 256) (h w : Fin 64) :
    Read.val_main_v31 (F := Ideal) (fun j => ((xa j : ℝ) : EReal)) (fun j => ((wa j : ℝ) : EReal)) (fun j => ((ba j : ℝ) : EReal))
        (fun j => ((woa j : ℝ) : EReal)) (fun j => ((boa j : ℝ) : EReal)) (ix4 b e h w)
      = ((Cert.Attn.GrAt xa wa ba woa boa b e h w : ℝ) : EReal) :=
  v31_at xa wa ba woa boa b e h w

end Cert.ReferenceIdeal.RefValue

end
-- ==== Proof.Algebraic.lean ====
import proofs.«406710_j33887291965459_3_alg».proof.Defs
import proofs.«406710_j33887291965459_3_alg».proof.Proof.IdealValue.OutBlock
import proofs.«406710_j33887291965459_3_alg».proof.Proof.IdealValue.Blocks
import proofs.«406710_j33887291965459_3_alg».proof.Proof.IdealValue.ArrayOut
import proofs.«406710_j33887291965459_3_alg».proof.Proof.RefG
import proofs.«406710_j33887291965459_3_alg».proof.Proof.RefImports
import proofs.«406710_j33887291965459_3_alg».proof.Proof.Gen.KernelIdeal
import proofs.«406710_j33887291965459_3_alg».proof.Proof.Gen.ReferenceIdeal
import proofs.«406710_j33887291965459_3_alg».proof.Proof.Gen.Pre_finite_inputs

noncomputable section

namespace Cert.Proof.Algebraic

open Idealize.ShloMosaic Idealize.SL.Sem Idealize.ShloMosaic.ValueIdx Cert.Attn

def resultOf (xa : Cert.KernelIdeal.S4x256x64x64.Idx → ℝ) (wa : Cert.KernelIdeal.S768x256.Idx → ℝ) (ba : Cert.KernelIdeal.S768.Idx → ℝ)
    (woa : Cert.KernelIdeal.S256x256.Idx → ℝ) (boa : Cert.KernelIdeal.S256.Idx → ℝ) : Cert.KernelIdeal.S4x256x64x64.Idx → EReal :=
  fun i => ((GrAt xa wa ba woa boa (i 0) (i 1) (i 2) (i 3) : ℝ) : EReal)

theorem algebraic : Cert.algebraic_KernelIdeal_ReferenceIdeal := by
  intro m ρ m' ρ' hpre hagree
  choose xa wa ba woa boa h0 h1 h2 h3 h4 using fun c => Cert.KernelIdeal.Val.reals_of_pre m hpre c
  refine ⟨fun c => resultOf (xa c) (wa c) (ba c) (woa c) (boa c), ?_, ?_⟩
  · exact Cert.KernelIdeal.Val.result_of_blocks m ρ
      (fun c b e n => ((Gr (toX (xa c)) (toW (wa c)) (toB (ba c)) (toW (woa c)) (toB (boa c)) b e n : ℝ) : EReal))
      (fun c t hO z e r => Cert.KernelIdeal.Val.outAt_apply m c (xa c) (wa c) (ba c) (woa c) (boa c)
        (Cert.KernelIdeal.Val.B0_apply m c (xa c) (h0 c)) (Cert.KernelIdeal.Val.B1_apply m c (wa c) (h1 c))
        (Cert.KernelIdeal.Val.B2_apply m c (ba c) (h2 c)) (Cert.KernelIdeal.Val.B3_apply m c (woa c) (h3 c))
        (Cert.KernelIdeal.Val.B4_apply m c (boa c) (h4 c)) t hO z e r)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, (hagree c).1, (hagree c).2.1, (hagree c).2.2.1, (hagree c).2.2.2.1, (hagree c).2.2.2.2,
      h0 c, h1 c, h2 c, h3 c, h4 c]
    funext i
    obtain ⟨b, e, h, w, rfl⟩ : ∃ (b : Fin 4) (e : Fin 256) (h w : Fin 64), i = ix4 b e h w := ⟨i 0, i 1, i 2, i 3, eq_ix4 i⟩
    exact Cert.ReferenceIdeal.RefValue.ref_is_Gr (xa c) (wa c) (ba c) (woa c) (boa c) b e h w

end Cert.Proof.Algebraic

end
-- ==== Proof.lean ====
import proofs.«406710_j33887291965459_3_alg».proof.Defs
import proofs.«406710_j33887291965459_3_alg».proof.Proof.Gen.Kernel
import proofs.«406710_j33887291965459_3_alg».proof.Proof.Gen.KernelIdeal
import proofs.«406710_j33887291965459_3_alg».proof.Proof.Gen.ReferenceIdeal
import proofs.«406710_j33887291965459_3_alg».proof.Proof.Gen.Pre_finite_inputs
import proofs.«406710_j33887291965459_3_alg».proof.Proof.IdealFrame.Frame
import proofs.«406710_j33887291965459_3_alg».proof.Proof.RefImports
import proofs.«406710_j33887291965459_3_alg».proof.Proof.Algebraic
import Idealize.ShloMosaic.PureOps.IdealRules

noncomputable section

namespace Cert.Proof

open Idealize.ShloMosaic Idealize.SL.Sem

/-- A name stands for the constant it abbreviates. -/
local instance : Named Bits := ⟨fun _ _ {φ} bits => FloatOps.ofBits φ bits⟩

/-- Reading each name as its constant, the idealized kernel is the kernel. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl

/-- So the frame, proved for any float operations, is the kernel's too. -/
theorem frame_kernel : Cert.frame_Kernel := fun m ρ _ => by
  show θ_run (Pipeline.defs Cert.Kernel.pcfgs Cert.Kernel.defs₀) _ _ _
  rw [defs₀_eq]
  exact Cert.KernelIdeal.Body.frame (F := Bits) m ρ

theorem frame_kernelIdeal : Cert.frame_KernelIdeal := fun m ρ _ => Cert.KernelIdeal.Body.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal :=
  ⟨IdealRules.named_const.statement Cert.KernelIdeal.κ "neg_big" .f32 0xFF333332#32 ⊥ rfl,
   IdealRules.named_const.statement Cert.KernelIdeal.κ "inv_1000000000000000000000000000000" .f32 0x0DA24260#32
     ((1 / 1000000000000000000000000000000 : ℝ) : EReal) rfl⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, Cert.Proof.Algebraic.algebraic⟩

end Cert.Proof

end
